-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S625000 : Shape := ⟨1, ![625000]⟩
abbrev S50000 : Shape := ⟨1, ![50000]⟩
abbrev S4x128x128 : Shape := ⟨3, ![4, 128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S625000 : S_.BroadcastsInDim S625000 (![] : Fin 0 → Fin S625000.rank)
  reducesTo_S625000_S_d0 : S625000.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg3 : IVec S50000 32) (main_v33 : IVec S_ 1) : IVec S_ 1 :=
  let main_c_12 : IVec S_ 32 := constantI S_ 32 0#32
  let main_v34 : IVec S50000 32 := broadcastInDim S50000 ![] bcast_S_S50000 main_c_12
  let main_v35 : IVec S50000 1 := cmpi .sge main_arg3 main_v34
  let main_c_13 : IVec S_ 32 := constantI S_ 32 64#32
  let main_v36 : IVec S50000 32 := broadcastInDim S50000 ![] bcast_S_S50000 main_c_13
  let main_v37 : IVec S50000 1 := cmpi .slt main_arg3 main_v36
  let main_v38 : IVec S50000 1 := andi main_v35 main_v37
  let main_c_14 : IVec S_ 1 := constantI S_ 1 1#1
  let main_v39 : IVec S_ 1 := (fun x v => Host.reduce IntOp.andi x v reducesTo_S50000_S_d0 h_S_) main_v38 main_c_14
  let main_v40 : IVec S_ 1 := andi main_v33 main_v39
  main_v40

def fn_part1 {F : FTy → Type} [FloatOps F] (main_arg3 : IVec S50000 32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_v33

def fn {F : FTy → Type} [FloatOps F] (main_arg0 : FVec F S50000x128 .f32) (main_arg1 : IVec S2x625000 32) (main_arg2 : FVec F S625000 .f32) (main_arg3 : IVec S50000 32) (main_arg4 : FVec F S4x128x128 .f32) (main_arg5 : FVec F S128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S625000 .f32 := Host.absf main_arg2
  let main_cst_0 : FVec F S_ .f32 := constant S_ .f32 0x7F800000#32
  let main_v5 : FVec F S625000 .f32 := broadcastInDim S625000 ![] bcast_S_S625000 main_cst_0
  let main_v6 : IVec S625000 1 := cmpf .olt main_v4 main_v5
  let main_c_1 : IVec S_ 1 := constantI S_ 1 1#1
  let main_v7 : IVec S_ 1 := (fun x v => Host.reduce IntOp.andi x v reducesTo_S625000_S_d0 h_S_) main_v6 main_c_1
  let main_v8 : IVec S_ 1 := andi main_v3 main_v7
  let main_v9 : FVec F S4x128x128 .f32 := Host.absf main_arg4
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg6 main_arg7 main_arg8 main_v13 main_v16
-- ==== Kernel.lean ====
abbrev S50000x128 : Shape := ⟨2, ![50000, 128]⟩
abbrev S2x625000 : Shape := ⟨2, ![2, 625000]⟩
abbrev S625000 : Shape := ⟨1, ![625000]⟩
abbrev S50000 : Shape := ⟨1, ![50000]⟩
abbrev S4x128x128 : Shape := ⟨3, ![4, 128, 128]⟩
abbrev S128 : Shape := ⟨1, ![128]⟩
abbrev S1x625000 : Shape := ⟨2, ![1, 625000]⟩
abbrev S_ : Shape := ⟨0, ![]⟩
abbrev S625000x1 : Shape := ⟨2, ![625000, 1]⟩
abbrev S625000x128 : Shape := ⟨2, ![625000, 128]⟩
abbrev S1x50000x128 : Shape := ⟨3, ![1, 50000, 128]⟩
abbrev S4x50000x128 : Shape := ⟨3, ![4, 50000, 128]⟩
abbrev S1x128 : Shape := ⟨2, ![1, 128]⟩
abbrev S4x5000x128 : Shape := ⟨3, ![4, 5000, 128]⟩
abbrev S5000x128 : Shape := ⟨2, ![5000, 128]⟩
abbrev S1x5000x128 : Shape := ⟨3, ![1, 5000, 128]⟩
abbrev S1x128x128 : Shape := ⟨3, ![1, 128, 128]⟩
abbrev S128x128 : Shape := ⟨2, ![128, 128]⟩
abbrev S50000x1 : Shape := ⟨2, ![50000, 1]⟩
abbrev S128x1 : Shape := ⟨2, ![128, 1]⟩
abbrev S5000x1 : Shape := ⟨2, ![5000, 1]⟩

abbrev nBuf : Space → Nat
  | .hbm => 118
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S625000, .f32⟩
  | .hbm, ⟨3, _⟩ => ⟨S50000, .i32⟩
  | .hbm, ⟨4, _⟩ => ⟨S4x128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x625000, .i32⟩
  | .hbm, ⟨10, _⟩ => ⟨S625000, .i32⟩
  | .hbm, ⟨11, _⟩ => ⟨S1x625000, .i32⟩
  | .hbm, ⟨12, _⟩ => ⟨S625000, .i32⟩
  | .hbm, ⟨13, _⟩ => ⟨S_, .f32⟩
  | .hbm, ⟨14, _⟩ => ⟨S50000, .f32⟩
  | .hbm, ⟨15, _⟩ => ⟨S625000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S625000, .i32⟩
  | .hbm, ⟨30, _⟩ => ⟨S625000, .i1⟩
  | .hbm, ⟨31, _⟩ => ⟨S_, .i32⟩
  | .hbm, ⟨32, _⟩ => ⟨S625000, .i32⟩
  | .hbm, ⟨33, _⟩ => ⟨S625000, .i32⟩
  | .hbm, ⟨34, _⟩ => ⟨S625000, .i32⟩
  | .hbm, ⟨35, _⟩ => ⟨S625000x1, .i32⟩
  | .hbm, ⟨36, _⟩ => ⟨S625000, .f32⟩
  | .hbm, ⟨37, _⟩ => ⟨S625000, .f32⟩
  | .hbm, ⟨38, _⟩ => ⟨S_, .i32⟩
  | .hbm, ⟨39, _⟩ => ⟨S625000, .i32⟩
  | .hbm, ⟨40, _⟩ => ⟨S625000, .i1⟩
  | .hbm, ⟨41, _⟩ => ⟨S_, .i32⟩
  | .hbm, ⟨42, _⟩ => ⟨S625000, .i32⟩
  | .hbm, ⟨43, _⟩ => ⟨S625000, .i32⟩
  | .hbm, ⟨44, _⟩ => ⟨S625000, .i32⟩
  | .hbm, ⟨45, _⟩ => ⟨S625000x1, .i32⟩
  | .hbm, ⟨46, _⟩ => ⟨S625000, .f32⟩
  | .hbm, ⟨47, _⟩ => ⟨S625000, .f32⟩
  | .hbm, ⟨48, _⟩ => ⟨S625000x1, .f32⟩
  | .hbm, ⟨49, _⟩ => ⟨S_, .i32⟩
  | .hbm, ⟨50, _⟩ => ⟨S625000, .i32⟩
  | .hbm, ⟨51, _⟩ => ⟨S625000, .i1⟩
  | .hbm, ⟨52, _⟩ => ⟨S_, .i32⟩
  | .hbm, ⟨53, _⟩ => ⟨S625000, .i32⟩
  | .hbm, ⟨54, _⟩ => ⟨S625000, .i32⟩
  | .hbm, ⟨55, _⟩ => ⟨S625000, .i32⟩
  | .hbm, ⟨56, _⟩ => ⟨S625000x1, .i32⟩
  | .hbm, ⟨57, _⟩ => ⟨S625000x128, .f32⟩
  | .hbm, ⟨58, _⟩ => ⟨S625000x128, .f32⟩
  | .hbm, ⟨59, _⟩ => ⟨S625000x128, .f32⟩
  | .hbm, ⟨60, _⟩ => ⟨S_, .f32⟩
  | .hbm, ⟨61, _⟩ => ⟨S50000x128, .f32⟩
  | .hbm, ⟨62, _⟩ => ⟨S625000x1, .i32⟩
  | .hbm, ⟨63, _⟩ => ⟨S50000x128, .f32⟩
  | .hbm, ⟨64, _⟩ => ⟨S625000x1, .f32⟩
  | .hbm, ⟨65, _⟩ => ⟨S_, .i32⟩
  | .hbm, ⟨66, _⟩ => ⟨S625000, .i32⟩
  | .hbm, ⟨67, _⟩ => ⟨S625000, .i1⟩
  | .hbm, ⟨68, _⟩ => ⟨S_, .i32⟩
  | .hbm, ⟨69, _⟩ => ⟨S625000, .i32⟩
  | .hbm, ⟨70, _⟩ => ⟨S625000, .i32⟩
  | .hbm, ⟨71, _⟩ => ⟨S625000, .i32⟩
  | .hbm, ⟨72, _⟩ => ⟨S625000x1, .i32⟩
  | .hbm, ⟨73, _⟩ => ⟨S625000x128, .f32⟩
  | .hbm, ⟨74, _⟩ => ⟨S625000x128, .f32⟩
  | .hbm, ⟨75, _⟩ => ⟨S625000x128, .f32⟩
  | .hbm, ⟨76, _⟩ => ⟨S_, .f32⟩
  | .hbm, ⟨77, _⟩ => ⟨S50000x128, .f32⟩
  | .hbm, ⟨78, _⟩ => ⟨S625000x1, .i32⟩
  | .hbm, ⟨79, _⟩ => ⟨S50000x128, .f32⟩
  | .hbm, ⟨80, _⟩ => ⟨S625000x1, .f32⟩
  | .hbm, ⟨81, _⟩ => ⟨S_, .i32⟩
  | .hbm, ⟨82, _⟩ => ⟨S625000, .i32⟩
  | .hbm, ⟨83, _⟩ => ⟨S625000, .i1⟩
  | .hbm, ⟨84, _⟩ => ⟨S_, .i32⟩
  | .hbm, ⟨85, _⟩ => ⟨S625000, .i32⟩
  | .hbm, ⟨86, _⟩ => ⟨S625000, .i32⟩
  | .hbm, ⟨87, _⟩ => ⟨S625000, .i32⟩
  | .hbm, ⟨88, _⟩ => ⟨S625000x1, .i32⟩
  | .hbm, ⟨89, _⟩ => ⟨S625000x128, .f32⟩
  | .hbm, ⟨90, _⟩ => ⟨S625000x128, .f32⟩
  | .hbm, ⟨91, _⟩ => ⟨S625000x128, .f32⟩
  | .hbm, ⟨92, _⟩ => ⟨S_, .f32⟩
  | .hbm, ⟨93, _⟩ => ⟨S50000x128, .f32⟩
  | .hbm, ⟨94, _⟩ => ⟨S625000x1, .i32⟩
  | .hbm, ⟨95, _⟩ => ⟨S50000x128, .f32⟩
  | .hbm, ⟨96, _⟩ => ⟨S1x50000x128, .f32⟩
  | .hbm, ⟨97, _⟩ => ⟨S1x50000x128, .f32⟩
  | .hbm, ⟨98, _⟩ => ⟨S1x50000x128, .f32⟩
  | .hbm, ⟨99, _⟩ => ⟨S1x50000x128, .f32⟩
  | .hbm, ⟨100, _⟩ => ⟨S4x50000x128, .f32⟩
  | .hbm, ⟨101, _⟩ => ⟨S1x128, .f32⟩
  | .hbm, ⟨102, _⟩ => ⟨S50000x128, .f32⟩
  | .hbm, ⟨103, _⟩ => ⟨S50000x1, .i32⟩
  | .hbm, ⟨104, _⟩ => ⟨S128x128, .f32⟩
  | .hbm, ⟨105, _⟩ => ⟨S128x1, .f32⟩
  | .hbm, ⟨106, _⟩ => ⟨S_, .f32⟩
  | .hbm, ⟨107, _⟩ => ⟨S128x1, .f32⟩
  | .hbm, ⟨108, _⟩ => ⟨S128x1, .f32⟩
  | .hbm, ⟨109, _⟩ => ⟨S128x128, .f32⟩
  | .hbm, ⟨110, _⟩ => ⟨S128x128, .f32⟩
  | .hbm, ⟨111, _⟩ => ⟨S1x128, .f32⟩
  | .hbm, ⟨112, _⟩ => ⟨S128x128, .f32⟩
  | .hbm, ⟨113, _⟩ => ⟨S128x128, .f32⟩
  | .hbm, ⟨114, _⟩ => ⟨S128x128, .f32⟩
  | .hbm, ⟨115, _⟩ => ⟨S1x128, .f32⟩
  | .hbm, ⟨116, _⟩ => ⟨S1x128, .f32⟩
  | .hbm, ⟨117, _⟩ => ⟨S50000x128, .f32⟩
  | .local _ .vmem, ⟨0, _⟩ => ⟨S4x5000x128, .f32⟩
  | .local _ .vmem, ⟨1, _⟩ => ⟨S4x5000x128, .f32⟩
  | .local _ .vmem, ⟨2, _⟩ => ⟨S4x128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .i32⟩
  | .local _ .vmem, ⟨9, _⟩ => ⟨S5000x1, .i32⟩
  | .local _ .vmem, ⟨10, _⟩ => ⟨S128x128, .f32⟩
  | .local _ .vmem, ⟨11, _⟩ => ⟨S128x1, .f32⟩
  | .local _ .vmem, ⟨12, _⟩ => ⟨S5000x128, .f32⟩
  | .local _ .vmem, ⟨13, _⟩ => ⟨S5000x128, .f32⟩
  | .local _ .vmem, ⟨14, _⟩ => ⟨S5000x1, .i32⟩
  | .local _ .vmem, ⟨15, _⟩ => ⟨S5000x1, .i32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .i32⟩
  | .local _ .vmem, ⟨24, _⟩ => ⟨S5000x1, .i32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76_0 : Ref sig .tc := ⟨.hbm, 104, rfl⟩
abbrev main_v76_1 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg8_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem8_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S50000 : S_.BroadcastsInDim S50000 (![] : Fin 0 → Fin S50000.rank)
  bcast_S625000_S625000x1_0 : S625000.BroadcastsInDim S625000x1 (![0] : Fin 1 → Fin S625000x1.rank)
  bcast_S_S625000 : S_.BroadcastsInDim S625000 (![] : Fin 0 → Fin S625000.rank)
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  bcast_S50000x128_S1x50000x128_1_2 : S50000x128.BroadcastsInDim S1x50000x128 (![1, 2] : Fin 2 → Fin S1x50000x128.rank)
  concatenates_S1x50000x128_S1x50000x128_S1x50000x128_S1x50000x128_S4x50000x128_d0 : Shape.Concatenates [S1x50000x128, S1x50000x128, S1x50000x128, S1x50000x128] S4x50000x128 0
  shapeCasts_S128_S1x128 : S128.ShapeCasts S1x128
  inb_S4x5000x128_S1x5000x128_0_0_0 : ∀ a, (![0, 0, 0] : Fin 3 → Nat) a + S1x5000x128.size a ≤ S4x5000x128.size a
  h_S1x5000x128 : 0 < S1x5000x128.numel
  shapeCasts_S1x5000x128_S5000x128 : S1x5000x128.ShapeCasts S5000x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x5000x128_S1x5000x128_1_0_0 : ∀ a, (![1, 0, 0] : Fin 3 → Nat) a + S1x5000x128.size a ≤ S4x5000x128.size a
  inb_S4x128x128_S1x128x128_1_0_0 : ∀ a, (![1, 0, 0] : Fin 3 → Nat) a + S1x128x128.size a ≤ S4x128x128.size a
  inb_S4x5000x128_S1x5000x128_2_0_0 : ∀ a, (![2, 0, 0] : Fin 3 → Nat) a + S1x5000x128.size a ≤ S4x5000x128.size a
  inb_S4x128x128_S1x128x128_2_0_0 : ∀ a, (![2, 0, 0] : Fin 3 → Nat) a + S1x128x128.size a ≤ S4x128x128.size a
  inb_S4x5000x128_S1x5000x128_3_0_0 : ∀ a, (![3, 0, 0] : Fin 3 → Nat) a + S1x5000x128.size a ≤ S4x5000x128.size a
  inb_S4x128x128_S1x128x128_3_0_0 : ∀ a, (![3, 0, 0] : Fin 3 → Nat) a + S1x128x128.size a ≤ S4x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S50000_S50000x1 : S50000.ShapeCasts S50000x1
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  iota_S5000x128_d1_w32 : S5000x128.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  natLt_1_32 : 1 < 32
  shapeCasts_S5000x128_S5000x128 : S5000x128.ShapeCasts S5000x128
  shapeCasts_S128x128_S128x128 : S128x128.ShapeCasts S128x128
  shapeCasts_S128x1_S128x1 : S128x1.ShapeCasts S128x1
  bcast_S_S128x1 : S_.BroadcastsInDim S128x1 (![] : Fin 0 → Fin S128x1.rank)
  bcast_S128x1_S128x128_0_1 : S128x1.BroadcastsInDim S128x128 (![0, 1] : Fin 2 → Fin S128x128.rank)
  scatter_S50000_S625000x1_S625000_n_0_0_1_wf : ScatterDims.WF S50000 S625000x1 S625000 [] [0] [0] 1
  gather_S50000_S625000x1_S625000_n_0_n_n_0_1_1_wf : GatherDims.WF S50000 S625000x1 S625000 [] [0] [] [0] [] 1 ![1]
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  dot_S5000x128_S5000x1_S128x1_0_0_1_1_n_n_wf : DotDims.WF S5000x128 S5000x1 S128x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x5000x128.size a ≤ S4x50000x128.size a
  hwx0_0 : ∀ i : grid0.Coords, EltTy.bits .f32 = 32 ∨ (Rect.block (s := S4x50000x128) S4x5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128x128.size a ≤ S4x128x128.size a
  hwx0_1 : ∀ i : grid0.Coords, EltTy.bits .f32 = 32 ∨ (Rect.block (s := S4x128x128) S4x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .i32 = 32 ∨ (Rect.block (s := S50000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .i32 = 32 ∨ (Rect.block (s := S50000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .i32 = 32 ∨ (Rect.block (s := S50000x1) S5000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .f32 = 32 ∨ (Rect.block (s := S50000x128) S5000x128.size (cc3_transform_8 i) (hinb3_8 i)).WholeWords (EltTy.packing .f32)

variable [Facts₀]

def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000_S625000x1_S625000_n_0_n_n_0_1_1 : GatherDims S50000 S625000x1 S625000 where
  offsetDims := []
  collapsedSliceDims := [0]
  operandBatchingDims := []
  startIndicesBatchingDims := []
  startIndexMap := [0]
  indexVectorDim := 1
  sliceSizes := ![1]
  wf := gather_S50000_S625000x1_S625000_n_0_n_n_0_1_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf

abbrev win0_0 : Pipeline.Window sig grid0 :=
  Pipeline.Window.ofSpec (Memref.whole main_v72) S4x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v73) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v74) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v74) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v76_0) S128x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v76_1) S128x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v74) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v80) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v82) S128x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v74) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v80) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v85) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v86) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v81) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v87) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S625000 : Shape := ⟨1, ![625000]⟩
abbrev S50000 : Shape := ⟨1, ![50000]⟩
abbrev S4x128x128 : Shape := ⟨3, ![4, 128, 128]⟩
abbrev S128 : Shape := ⟨1, ![128]⟩
abbrev S1x625000 : Shape := ⟨2, ![1, 625000]⟩
abbrev S_ : Shape := ⟨0, ![]⟩
abbrev S625000x1 : Shape := ⟨2, ![625000, 1]⟩
abbrev S1x128x128 : Shape := ⟨3, ![1, 128, 128]⟩
abbrev S128x128 : Shape := ⟨2, ![128, 128]⟩
abbrev S625000x128 : Shape := ⟨2, ![625000, 128]⟩
abbrev S1x128 : Shape := ⟨2, ![1, 128]⟩
abbrev S64 : Shape := ⟨1, ![64]⟩
abbrev S50000x1 : Shape := ⟨2, ![50000, 1]⟩
abbrev S64x1 : Shape := ⟨2, ![64, 1]⟩
abbrev S64x128 : Shape := ⟨2, ![64, 128]⟩

abbrev nBuf : Space → Nat
  | .hbm => 174
  | .vmem => 0
  | .smem => 0
  | _ => 0

abbrev hbmTy0_0 (i : Nat) : BufTy := match i % 128 with
  | 0 => ⟨S50000x128, .f32⟩
  | 1 => ⟨S2x625000, .i32⟩
  | 2 => ⟨S625000, .f32⟩
  | 3 => ⟨S50000, .i32⟩
  | 4 => ⟨S4x128x128, .f32⟩
  | 5 => ⟨S128, .f32⟩
  | 6 => ⟨S128, .f32⟩
  | 7 => ⟨S128, .f32⟩
  | 8 => ⟨S128, .f32⟩
  | 9 => ⟨S1x625000, .i32⟩
  | 10 => ⟨S625000, .i32⟩
  | 11 => ⟨S1x625000, .i32⟩
  | 12 => ⟨S625000, .i32⟩
  | 13 => ⟨S_, .f32⟩
  | 14 => ⟨S50000, .f32⟩
  | 15 => ⟨S625000x1, .i32⟩
  | 16 => ⟨S50000, .f32⟩
  | 17 => ⟨S_, .f32⟩
  | 18 => ⟨S50000, .f32⟩
  | 19 => ⟨S50000, .i1⟩
  | 20 => ⟨S_, .f32⟩
  | 21 => ⟨S50000, .f32⟩
  | 22 => ⟨S50000, .f32⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S625000, .i32⟩
  | 30 => ⟨S625000, .i1⟩
  | 31 => ⟨S_, .i32⟩
  | 32 => ⟨S625000, .i32⟩
  | 33 => ⟨S625000, .i32⟩
  | 34 => ⟨S625000, .i32⟩
  | 35 => ⟨S625000x1, .i32⟩
  | 36 => ⟨S625000, .f32⟩
  | 37 => ⟨S625000, .f32⟩
  | 38 => ⟨S_, .i32⟩
  | 39 => ⟨S625000, .i32⟩
  | 40 => ⟨S625000, .i1⟩
  | 41 => ⟨S_, .i32⟩
  | 42 => ⟨S625000, .i32⟩
  | 43 => ⟨S625000, .i32⟩
  | 44 => ⟨S625000, .i32⟩
  | 45 => ⟨S625000x1, .i32⟩
  | 46 => ⟨S625000, .f32⟩
  | 47 => ⟨S625000, .f32⟩
  | 48 => ⟨S1x128x128, .f32⟩
  | 49 => ⟨S128x128, .f32⟩
  | 50 => ⟨S50000x128, .f32⟩
  | 51 => ⟨S625000x1, .f32⟩
  | 52 => ⟨S_, .i32⟩
  | 53 => ⟨S625000, .i32⟩
  | 54 => ⟨S625000, .i1⟩
  | 55 => ⟨S_, .i32⟩
  | 56 => ⟨S625000, .i32⟩
  | 57 => ⟨S625000, .i32⟩
  | 58 => ⟨S625000, .i32⟩
  | 59 => ⟨S625000x1, .i32⟩
  | 60 => ⟨S625000x128, .f32⟩
  | 61 => ⟨S625000x128, .f32⟩
  | 62 => ⟨S625000x128, .f32⟩
  | 63 => ⟨S_, .f32⟩
  | 64 => ⟨S50000x128, .f32⟩
  | 65 => ⟨S625000x1, .i32⟩
  | 66 => ⟨S50000x128, .f32⟩
  | 67 => ⟨S1x128x128, .f32⟩
  | 68 => ⟨S128x128, .f32⟩
  | 69 => ⟨S50000x128, .f32⟩
  | 70 => ⟨S50000x128, .f32⟩
  | 71 => ⟨S625000x1, .f32⟩
  | 72 => ⟨S_, .i32⟩
  | 73 => ⟨S625000, .i32⟩
  | 74 => ⟨S625000, .i1⟩
  | 75 => ⟨S_, .i32⟩
  | 76 => ⟨S625000, .i32⟩
  | 77 => ⟨S625000, .i32⟩
  | 78 => ⟨S625000, .i32⟩
  | 79 => ⟨S625000x1, .i32⟩
  | 80 => ⟨S625000x128, .f32⟩
  | 81 => ⟨S625000x128, .f32⟩
  | 82 => ⟨S625000x128, .f32⟩
  | 83 => ⟨S_, .f32⟩
  | 84 => ⟨S50000x128, .f32⟩
  | 85 => ⟨S625000x1, .i32⟩
  | 86 => ⟨S50000x128, .f32⟩
  | 87 => ⟨S1x128x128, .f32⟩
  | 88 => ⟨S128x128, .f32⟩
  | 89 => ⟨S50000x128, .f32⟩
  | 90 => ⟨S50000x128, .f32⟩
  | 91 => ⟨S625000x1, .f32⟩
  | 92 => ⟨S_, .i32⟩
  | 93 => ⟨S625000, .i32⟩
  | 94 => ⟨S625000, .i1⟩
  | 95 => ⟨S_, .i32⟩
  | 96 => ⟨S625000, .i32⟩
  | 97 => ⟨S625000, .i32⟩
  | 98 => ⟨S625000, .i32⟩
  | 99 => ⟨S625000x1, .i32⟩
  | 100 => ⟨S625000x128, .f32⟩
  | 101 => ⟨S625000x128, .f32⟩
  | 102 => ⟨S625000x128, .f32⟩
  | 103 => ⟨S_, .f32⟩
  | 104 => ⟨S50000x128, .f32⟩
  | 105 => ⟨S625000x1, .i32⟩
  | 106 => ⟨S50000x128, .f32⟩
  | 107 => ⟨S1x128x128, .f32⟩
  | 108 => ⟨S128x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000, .f32⟩
  | 116 => ⟨S_, .f32⟩
  | 117 => ⟨S64, .f32⟩
  | 118 => ⟨S50000x1, .i32⟩
  | 119 => ⟨S64, .f32⟩
  | 120 => ⟨S_, .f32⟩
  | 121 => ⟨S64, .f32⟩
  | 122 => ⟨S64, .f32⟩
  | 123 => ⟨S64x1, .f32⟩
  | 124 => ⟨S_, .f32⟩
  | 125 => ⟨S64x128, .f32⟩
  | 126 => ⟨S50000x1, .i32⟩
  | 127 => ⟨S64x128, .f32⟩
  | _ => ⟨S50000x128, .f32⟩

abbrev hbmTy0_1 (i : Nat) : BufTy := match i % 128 with
  | 0 => ⟨S64x128, .f32⟩
  | 1 => ⟨S64x128, .f32⟩
  | 2 => ⟨S_, .i32⟩
  | 3 => ⟨S50000, .i32⟩
  | 4 => ⟨S50000, .i1⟩
  | 5 => ⟨S_, .i32⟩
  | 6 => ⟨S50000, .i32⟩
  | 7 => ⟨S50000, .i32⟩
  | 8 => ⟨S50000, .i32⟩
  | 9 => ⟨S50000x1, .i32⟩
  | 10 => ⟨S50000x128, .f32⟩
  | 11 => ⟨S1x128, .f32⟩
  | 12 => ⟨S50000x128, .f32⟩
  | 13 => ⟨S50000x128, .f32⟩
  | 14 => ⟨S50000x128, .f32⟩
  | 15 => ⟨S50000x128, .f32⟩
  | 16 => ⟨S_, .f32⟩
  | 17 => ⟨S64x128, .f32⟩
  | 18 => ⟨S50000x1, .i32⟩
  | 19 => ⟨S64x128, .f32⟩
  | 20 => ⟨S64x128, .f32⟩
  | 21 => ⟨S64x128, .f32⟩
  | 22 => ⟨S1x128, .f32⟩
  | 23 => ⟨S50000x128, .f32⟩
  | 24 => ⟨S50000x128, .f32⟩
  | 25 => ⟨S_, .i32⟩
  | 26 => ⟨S50000, .i32⟩
  | 27 => ⟨S50000, .i1⟩
  | 28 => ⟨S_, .i32⟩
  | 29 => ⟨S50000, .i32⟩
  | 30 => ⟨S50000, .i32⟩
  | 31 => ⟨S50000, .i32⟩
  | 32 => ⟨S50000x1, .i32⟩
  | 33 => ⟨S50000x128, .f32⟩
  | 34 => ⟨S_, .f32⟩
  | 35 => ⟨S50000x128, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_12 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_15 : Ref sig .tc := ⟨.hbm, 114, rfl⟩
abbrev main_v86 : Ref sig .tc := ⟨.hbm, 115, rfl⟩
abbrev main_cst_16 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_17 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_18 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_19 : Ref sig .tc := ⟨.hbm, 130, rfl⟩
abbrev main_v98 : Ref sig .tc := ⟨.hbm, 131, rfl⟩
abbrev main_v99 : Ref sig .tc := ⟨.hbm, 132, rfl⟩
abbrev main_c_20 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_21 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_c_22 : Ref sig .tc := ⟨.hbm, 153, rfl⟩
abbrev main_v118 : Ref sig .tc := ⟨.hbm, 154, rfl⟩
abbrev main_v119 : Ref sig .tc := ⟨.hbm, 155, rfl⟩
abbrev main_c_23 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_24 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_call1_cst : Ref sig .tc := ⟨.hbm, 170, rfl⟩
abbrev main_call1_v0 : Ref sig .tc := ⟨.hbm, 171, rfl⟩
abbrev main_v132 : Ref sig .tc := ⟨.hbm, 172, rfl⟩
abbrev main_v133 : Ref sig .tc := ⟨.hbm, 173, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S50000 : S_.BroadcastsInDim S50000 (![] : Fin 0 → Fin S50000.rank)
  bcast_S625000_S625000x1_0 : S625000.BroadcastsInDim S625000x1 (![0] : Fin 1 → Fin S625000x1.rank)
  bcast_S_S625000 : S_.BroadcastsInDim S625000 (![] : Fin 0 → Fin S625000.rank)
  slices_S4x128x128_S1x128x128_0_0_0 : S4x128x128.Slices ![0, 0, 0] S1x128x128
  shapeCasts_S1x128x128_S128x128 : S1x128x128.ShapeCasts S128x128
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S_S64x128 : S_.BroadcastsInDim S64x128 (![] : Fin 0 → Fin S64x128.rank)
  bcast_S64x1_S64x128_0_1 : S64x1.BroadcastsInDim S64x128 (![0, 1] : Fin 2 → Fin S64x128.rank)
  scatter_S50000_S625000x1_S625000_n_0_0_1_wf : ScatterDims.WF S50000 S625000x1 S625000 [] [0] [0] 1
  gather_S50000_S625000x1_S625000_n_0_n_n_0_1_1_wf : GatherDims.WF S50000 S625000x1 S625000 [] [0] [] [0] [] 1 ![1]
  dot_S50000x128_S128x128_S50000x128_1_0_0_1_n_n_wf : DotDims.WF S50000x128 S128x128 S50000x128 [1] [0] [0] [1] [] []
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  gather_S64x128_S50000x1_S50000x128_1_0_n_n_0_1_1128_wf : GatherDims.WF S64x128 S50000x1 S50000x128 [1] [0] [] [0] [] 1 ![1, 128]

variable [Facts₀]

def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000_S625000x1_S625000_n_0_n_n_0_1_1 : GatherDims S50000 S625000x1 S625000 where
  offsetDims := []
  collapsedSliceDims := [0]
  operandBatchingDims := []
  startIndicesBatchingDims := []
  startIndexMap := [0]
  indexVectorDim := 1
  sliceSizes := ![1]
  wf := gather_S50000_S625000x1_S625000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf

class Facts : Prop extends Facts₀ where

variable [Facts]
-- ==== Proof.FrR0.lean ====
/-
  Kernel call 0 (the combination of the four hops with the four weight matrices, on tiles of 5000 rows): what each window's buffer holds after the body at every grid point.
-/
import proofs.«413368_j28329604284661_1_alg».proof.Proof.Gen.KernelIdeal.Launch
import proofs.«413368_j28329604284661_1_alg».proof.Proof.Gen.KernelIdeal.Skeleton
import proofs.«413368_j28329604284661_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rH0 : Rect S4x5000x128 := Rect.unit (s := S4x5000x128) ![0, 0, 0] S1x5000x128.size inb_S4x5000x128_S1x5000x128_0_0_0
abbrev rW0 : Rect S4x128x128 := Rect.unit (s := S4x128x128) ![0, 0, 0] S1x128x128.size inb_S4x128x128_S1x128x128_0_0_0
abbrev rH1 : Rect S4x5000x128 := Rect.unit (s := S4x5000x128) ![1, 0, 0] S1x5000x128.size inb_S4x5000x128_S1x5000x128_1_0_0
abbrev rW1 : Rect S4x128x128 := Rect.unit (s := S4x128x128) ![1, 0, 0] S1x128x128.size inb_S4x128x128_S1x128x128_1_0_0
abbrev rH2 : Rect S4x5000x128 := Rect.unit (s := S4x5000x128) ![2, 0, 0] S1x5000x128.size inb_S4x5000x128_S1x5000x128_2_0_0
abbrev rW2 : Rect S4x128x128 := Rect.unit (s := S4x128x128) ![2, 0, 0] S1x128x128.size inb_S4x128x128_S1x128x128_2_0_0
abbrev rH3 : Rect S4x5000x128 := Rect.unit (s := S4x5000x128) ![3, 0, 0] S1x5000x128.size inb_S4x5000x128_S1x5000x128_3_0_0
abbrev rW3 : Rect S4x128x128 := Rect.unit (s := S4x128x128) ![3, 0, 0] S1x128x128.size inb_S4x128x128_S1x128x128_3_0_0
abbrev rb : Rect S1x128 := Rect.unit (s := S1x128) ![0, 0] S1x128.size inb_S1x128_S1x128_0_0
abbrev r0_out : Rect S5000x128 := Rect.unit (s := S5000x128) ![0, 0] S5000x128.size inb_S5000x128_S5000x128_0_0

/-- The output tile after the body, from the three input blocks. -/
def out0_3 (x0 : Vec F S4x5000x128 .f32) (x1 : Vec F S4x128x128 .f32) (x2 : Vec F S1x128 .f32) : Vec F S5000x128 .f32 :=
  View.canon [⟨r0_out, k0_pay1 (k0_pay2 (View.ld x0 rH0) (View.ld x1 rW0) (View.ld x0 rH1) (View.ld x1 rW1)
    (View.ld x0 rH2) (View.ld x1 rW2) (View.ld x0 rH3) (View.ld x1 rW3)) (k0_pay3 (View.ld x2 rb))⟩]

theorem zero2 : (![0, 0] : Fin 2 → Nat) = fun _ => 0 := funext fun a => by fin_cases a <;> rfl

theorem out0_3_eq (x0 : Vec F S4x5000x128 .f32) (x1 : Vec F S4x128x128 .f32) (x2 : Vec F S1x128 .f32) :
    out0_3 x0 x1 x2 = k0_pay1 (k0_pay2 (View.ld x0 rH0) (View.ld x1 rW0) (View.ld x0 rH1) (View.ld x1 rW1)
      (View.ld x0 rH2) (View.ld x1 rW2) (View.ld x0 rH3) (View.ld x1 rW3)) (k0_pay3 x2) := by
  unfold out0_3
  rw [View.canon_unit_zero zero2]
  rw [View.ld_unit_zero (S := S1x128) zero2]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

set_option maxHeartbeats 1000000 in

theorem sound_kernel0 (c : Dev nD) (E : Set ℕ) (i : grid0.Coords)
    (arg1 : Memref sig .tc .vmem S4x5000x128 .f32) (harg1 : arg1.IsWhole)
    (arg2 : Memref sig .tc .vmem S4x128x128 .f32) (harg2 : arg2.IsWhole)
    (arg3 : Memref sig .tc .vmem S1x128 .f32) (harg3 : arg3.IsWhole)
    (arg4 : Memref sig .tc .vmem S5000x128 .f32) (harg4 : arg4.IsWhole)
    (x0 : Vec F S4x5000x128 .f32) (x1 : Vec F S4x128x128 .f32) (x2 : Vec F S1x128 .f32) (xo : Vec F S5000x128 .f32) (K : PUnit → sProp 𝕄) :
    iprop(owns c arg1 fullShare x0 ∗ owns c arg2 fullShare x1
        ∗ owns c arg3 fullShare x2 ∗ owns c arg4 fullShare xo
        ∗ (iprop(owns c arg1 fullShare x0 ∗ owns c arg2 fullShare x1
            ∗ owns c arg3 fullShare x2 ∗ owns c arg4 fullShare (out0_3 x0 x1 x2)) -∗ K ⟨⟩))
      ⊢ wp frame (wpE (defs₀ (F := F)) Variants.none c none) E (cc0__tagconv_combine_kernel i arg1 harg1 arg2 harg2 arg3 harg3 arg4 harg4) K := by
  simp only [cc0__tagconv_combine_kernel_eq_skeleton]; unfold cc0__tagconv_combine_kernel_skel
  unfold owns
  iintro ⟨⟨%f0, %hf0, H0⟩, ⟨%f1, %hf1, H1⟩, ⟨%f2, %hf2, H2⟩, ⟨%f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_3 (c : Dev nD) (t : Fin cfg0.N) : (dat0 V c).after 3 t = out0_3 (iblk0 V c 0 t) (iblk0 V c 1 t) (iblk0 V c 2 t) := by dsimp only [dat0]

theorem before0_in (c : Dev nD) (t : Fin cfg0.N) : (∀ d, (dat0 V c).before 0 t d = iblk0 V c 0 t)
    ∧ (∀ d, (dat0 V c).before 1 t d = iblk0 V c 1 t) ∧ ∀ d, (dat0 V c).before 2 t d = iblk0 V c 2 t := by
  refine ⟨?_, ?_, ?_⟩ <;> intro d <;>
  exact ((dat0 V c).before_in_eq_fetched _ rfl (fun _ => rfl) (fun _ _ _ => rfl) (fun _ => rfl) t d).trans rfl

theorem sound_body0 (c : Dev nD) (t : Fin cfg0.N) :
    iprop((dat0 V c).Φ t.castSucc ∗ (dat0 V c).owesAt () t.castSucc
      ∗ (∃ d, owns c (st0_0 t) fullShare ((dat0 V c).before 0 t d))
      ∗ (∃ d, owns c (st0_1 t) fullShare ((dat0 V c).before 1 t d))
      ∗ (∃ d, owns c (st0_2 t) fullShare ((dat0 V c).before 2 t d))
      ∗ (∃ d, owns c (st0_3 t) fullShare ((dat0 V c).before 3 t d)))
    ⊢ wp frame (wpE (defs₀ (F := F)) Variants.none c none) Set.univ (bodyAt0 t) fun _ =>
      iprop((dat0 V c).Φ t.castSucc ∗ (dat0 V c).owesAt () t.castSucc
        ∗ owns c (st0_0 t) fullShare (iblk0 V c 0 t) ∗ owns c (st0_1 t) fullShare (iblk0 V c 1 t)
        ∗ owns c (st0_2 t) fullShare (iblk0 V c 2 t)
        ∗ owns c (st0_3 t) fullShare ((dat0 V c).after 3 t)) := by
  unfold bodyAt0
  rw [after0_3]
  simp only [before0_in V c t]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _ _)
  iframe H0 H1 H2 H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrR1.lean ====
/-
  Kernel call 1 (per-graph sums and node counts, accumulated over the ten row tiles): what each window's buffer holds after the body at every grid point.
-/
import proofs.«413368_j28329604284661_1_alg».proof.Proof.Gen.KernelIdeal.Launch
import proofs.«413368_j28329604284661_1_alg».proof.Proof.Gen.KernelIdeal.Skeleton
import proofs.«413368_j28329604284661_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two accumulators after grid point n: the tiles' contributions folded from zero. -/
def outsAt1 (c : Dev nD) : (n : ℕ) → n < cfg1.N → Vec F S128x128 .f32 × Vec F S128x1 .f32
  | 0, hn => (k1_pay4 (iblk1 V c 1 ⟨0, hn⟩) (iblk1 V c 0 ⟨0, hn⟩) (k1_pay1 (F := F)), k1_pay5 (iblk1 V c 1 ⟨0, hn⟩) (k1_pay2 (F := F)))
  | n + 1, hn => (k1_pay4 (iblk1 V c 1 ⟨n + 1, hn⟩) (iblk1 V c 0 ⟨n + 1, hn⟩) (outsAt1 c n (Nat.lt_of_succ_lt hn)).1,
      k1_pay5 (iblk1 V c 1 ⟨n + 1, hn⟩) (outsAt1 c n (Nat.lt_of_succ_lt hn)).2)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

private theorem hz1 : (![0, 0] : Fin 2 → Nat) = fun _ => 0 := funext fun a => by fin_cases a <;> rfl

section
variable (c : Dev nD) (i : grid1.Coords)
  {a1 : Memref sig .tc .vmem S5000x128 .f32} (h1 : a1.IsWhole) {a2 : Memref sig .tc .vmem S5000x1 .i32} (h2 : a2.IsWhole)
  {a3 : Memref sig .tc .vmem S128x128 .f32} (h3 : a3.IsWhole) {a4 : Memref sig .tc .vmem S128x1 .f32} (h4 : a4.IsWhole)
  (x0 : Vec F S5000x128 .f32) (x1 : Vec F S5000x1 .i32) (xo2 : Vec F S128x128 .f32) (xo3 : Vec F S128x1 .f32)

set_option maxHeartbeats 1000000 in

theorem sound_kernel1 (z2 : Vec F S128x128 .f32) (z3 : Vec F S128x1 .f32)
    (hc : cond1_0 i ∧ z2 = k1_pay1 ∧ z3 = k1_pay2 ∨ ¬cond1_0 i ∧ z2 = xo2 ∧ z3 = xo3) (E : Set ℕ) (K : PUnit → sProp 𝕄) :
    iprop(owns c a1 fullShare x0 ∗ owns c a2 fullShare x1
        ∗ owns c a3 fullShare xo2 ∗ owns c a4 fullShare xo3
        ∗ (iprop(owns c a1 fullShare x0 ∗ owns c a2 fullShare x1
            ∗ owns c a3 fullShare (k1_pay4 x1 x0 z2) ∗ owns c a4 fullShare (k1_pay5 x1 z3)) -∗ K ⟨⟩))
      ⊢ wp frame (wpE (defs₀ (F := F)) Variants.none c none) E (cc1__stats_kernel i a1 h1 a2 h2 a3 h3 a4 h4) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, Hk⟩
  obtain rfl := h1.eq_unread hf0; obtain rfl := h2.eq_unread hf1
  obtain rfl := h3.eq_unread hf2; obtain rfl := h4.eq_unread hf3
  rcases hc with ⟨hc, rfl, rfl⟩ | ⟨hc, rfl, rfl⟩ <;>
  · sl_exec (disch := first | exact hc)
    sl_step
    iapply Hk
    isplitl [H0]
    · iexists _; isplitr; · ipureintro; exact h1.read_unread _
      iexact H0
    isplitl [H1]
    · iexists _; isplitr; · ipureintro; exact h2.read_unread _
      iexact H1
    isplitl [H2] <;>
    · iexists _; isplitr; swap; · iassumption
      ipureintro
      refine (View.read_writes_eq_canon _ _ _ (View.cover_of_tiledL _ (Shape.size _) (by sl_kernel_rfl))).trans ?_
      sl_unfold_words
      first
        | rw [View.canon_cons_unit_zero hz1, View.readCov_unit_zero _ hz1]
        | rw [View.canon_unit_zero hz1]
      simp only [View.readAt_eq_ld, h1.read_unread, h2.read_unread, h3.read_unread, h4.read_unread, View.ld_unit_zero (S := S5000x128) hz1,
        View.ld_unit_zero (S := S5000x1) hz1, View.ld_unit_zero (S := S128x128) hz1, View.ld_unit_zero (S := S128x1) hz1]

end

theorem pred_lt1 (t : Fin cfg1.N) : t.val - 1 < cfg1.N := Nat.lt_of_le_of_lt (Nat.sub_le _ _) t.isLt

theorem outsAt1_A (c : Dev nD) : ∀ t : Fin cfg1.N, t.val = 0 → outsAt1 V c t.val t.isLt =
    (k1_pay4 (iblk1 V c 1 t) (iblk1 V c 0 t) (k1_pay1 (F := F)), k1_pay5 (iblk1 V c 1 t) (k1_pay2 (F := F)))
  | ⟨0, _⟩, _ => rfl
  | ⟨n + 1, _⟩, h => absurd h n.succ_ne_zero
theorem outsAt1_B (c : Dev nD) : ∀ t : Fin cfg1.N, t.val ≠ 0 → outsAt1 V c t.val t.isLt =
    (k1_pay4 (iblk1 V c 1 t) (iblk1 V c 0 t) (outsAt1 V c (t.val - 1) (pred_lt1 t)).1,
      k1_pay5 (iblk1 V c 1 t) (outsAt1 V c (t.val - 1) (pred_lt1 t)).2)
  | ⟨0, _⟩, h => absurd rfl h
  | ⟨n + 1, _⟩, _ => rfl

theorem before1_in (c : Dev nD) (t : Fin cfg1.N) :
    (∀ d, (dat1 V c).before 0 t d = iblk1 V c 0 t) ∧ ∀ d, (dat1 V c).before 1 t d = iblk1 V c 1 t := by
  constructor <;> intro d <;>
  exact ((dat1 V c).before_in_eq_fetched _ rfl (fun _ => rfl) (fun _ _ _ => rfl) (fun _ => rfl) t d).trans rfl

theorem before1_2 (c : Dev nD) (t : Fin cfg1.N) (h0 : t.val ≠ 0) (d) :
    (dat1 V c).before 2 t d = (outsAt1 V c (t.val - 1) (pred_lt1 t)).1 := by
  have hN : t.val < 10 := lt_of_lt_of_eq t.isLt (show cfg1.N = 10 from N_1)
  exact (dat1 V c).before_out_kept 2 rfl t h0 (Bool.eq_false_iff.mpr fun h => by have := (flush1_2 _).mp h; dsimp only at this; omega)
    (fun _ => rfl) (fun _ _ => rfl) d
theorem before1_3 (c : Dev nD) (t : Fin cfg1.N) (h0 : t.val ≠ 0) (d) :
    (dat1 V c).before 3 t d = (outsAt1 V c (t.val - 1) (pred_lt1 t)).2 := by
  have hN : t.val < 10 := lt_of_lt_of_eq t.isLt (show cfg1.N = 10 from N_1)
  exact (dat1 V c).before_out_kept 3 rfl t h0 (Bool.eq_false_iff.mpr fun h => by have := (flush1_3 _).mp h; dsimp only at this; omega)
    (fun _ => rfl) (fun _ _ => rfl) d

set_option maxHeartbeats 800000 in

theorem sound_body1 (c : Dev nD) (t : Fin cfg1.N) :
    iprop((dat1 V c).Φ t.castSucc ∗ (dat1 V c).owesAt () t.castSucc
      ∗ (∃ d, owns c (st1_0 t) fullShare ((dat1 V c).before 0 t d))
      ∗ (∃ d, owns c (st1_1 t) fullShare ((dat1 V c).before 1 t d))
      ∗ (∃ d, owns c (st1_2 t) fullShare ((dat1 V c).before 2 t d))
      ∗ (∃ d, owns c (st1_3 t) fullShare ((dat1 V c).before 3 t d)))
    ⊢ wp frame (wpE (defs₀ (F := F)) Variants.none c none) Set.univ (bodyAt1 t) fun _ =>
      iprop((dat1 V c).Φ t.castSucc ∗ (dat1 V c).owesAt () t.castSucc
        ∗ owns c (st1_0 t) fullShare (iblk1 V c 0 t) ∗ owns c (st1_1 t) fullShare (iblk1 V c 1 t)
        ∗ owns c (st1_2 t) fullShare (outsAt1 V c t.val t.isLt).1
        ∗ owns c (st1_3 t) fullShare (outsAt1 V c t.val t.isLt).2) := by
  unfold bodyAt1
  simp only [before1_in V c t]
  by_cases h0 : t.val = 0 <;>
  · first | simp only [outsAt1_A V c t h0] | simp only [outsAt1_B V c t h0]
    iintro ⟨HΦ, Ho, ⟨%d0, H0⟩, ⟨%d1, H1⟩, ⟨%d2, H2⟩, ⟨%d3, H3⟩⟩
    iapply (sound_kernel1 c _ _ _ _ _ (iblk1 V c 0 t) (iblk1 V c 1 t) ((dat1 V c).before 2 t d2) ((dat1 V c).before 3 t d3) _ _ (by
      first
        | exact .inl ⟨(hcond1_0 t).mpr h0, rfl, rfl⟩
        | exact .inr ⟨fun h => h0 ((hcond1_0 t).mp h), (before1_2 V c t h0 d2).symm, (before1_3 V c t h0 d3).symm⟩) Set.univ _)
    iframe H0 H1 H2 H3
    iintro ⟨H0, H1, H2, H3⟩
    iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrR2.lean ====
/-
  Kernel call 2 (per-graph sums of squared centred entries, accumulated over the ten row tiles): what each window's buffer holds after the body at every grid point.
-/
import proofs.«413368_j28329604284661_1_alg».proof.Proof.Gen.KernelIdeal.Launch
import proofs.«413368_j28329604284661_1_alg».proof.Proof.Gen.KernelIdeal.Skeleton
import proofs.«413368_j28329604284661_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after grid point n: the tiles' contributions folded from zero. -/
def outsAt2 (c : Dev nD) : (n : ℕ) → n < cfg2.N → Vec F S128x128 .f32
  | 0, hn => k2_pay2 (iblk2 V c 1 ⟨0, hn⟩) (iblk2 V c 2 ⟨0, hn⟩) (iblk2 V c 0 ⟨0, hn⟩) (iblk2 V c 3 ⟨0, hn⟩) (k2_pay1 (F := F))
  | n + 1, hn => k2_pay2 (iblk2 V c 1 ⟨n + 1, hn⟩) (iblk2 V c 2 ⟨n + 1, hn⟩) (iblk2 V c 0 ⟨n + 1, hn⟩) (iblk2 V c 3 ⟨n + 1, hn⟩) (outsAt2 c n (Nat.lt_of_succ_lt hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_4 (c : Dev nD) (t : Fin cfg2.N) : (dat2 V c).after 4 t = outsAt2 V c t.val t.isLt := by dsimp only [dat2]

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

theorem zero_off2 : (![0, 0] : Fin 2 → Nat) = fun _ => 0 := funext fun a => by fin_cases a <;> rfl

section
variable (c : Dev nD) (i : grid2.Coords)
  {a1 : Memref sig .tc .vmem S5000x128 .f32} (h1 : a1.IsWhole) {a2 : Memref sig .tc .vmem S5000x1 .i32} (h2 : a2.IsWhole)
  {a3 : Memref sig .tc .vmem S128x128 .f32} (h3 : a3.IsWhole) {a4 : Memref sig .tc .vmem S1x128 .f32} (h4 : a4.IsWhole)
  {a5 : Memref sig .tc .vmem S128x128 .f32} (h5 : a5.IsWhole)
  (xo : Vec F S5000x128 .f32) (xb : Vec F S5000x1 .i32) (xmean : Vec F S128x128 .f32) (xscale : Vec F S1x128 .f32) (prev : Vec F S128x128 .f32)

set_option maxHeartbeats 1000000 in

theorem sound_kernel2 (z : Vec F S128x128 .f32) (hc : cond2_0 i ∧ z = k2_pay1 ∨ ¬cond2_0 i ∧ z = prev) (E : Set ℕ) (K : PUnit → sProp 𝕄) :
    iprop(owns c a1 fullShare xo ∗ owns c a2 fullShare xb
        ∗ owns c a3 fullShare xmean ∗ owns c a4 fullShare xscale
        ∗ owns c a5 fullShare prev
        ∗ (iprop(owns c a1 fullShare xo ∗ owns c a2 fullShare xb
        ∗ owns c a3 fullShare xmean ∗ owns c a4 fullShare xscale
        ∗ owns c a5 fullShare (k2_pay2 xb xmean xo xscale z)) -∗ K ⟨⟩))
      ⊢ wp frame (wpE (defs₀ (F := F)) Variants.none c none) E (cc2__var_kernel i a1 h1 a2 h2 a3 h3 a4 h4 a5 h5) K := by
  simp only [cc2__var_kernel_eq_skeleton]; unfold cc2__var_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h1.eq_unread hf0; obtain rfl := h2.eq_unread hf1
  obtain rfl := h3.eq_unread hf2; obtain rfl := h4.eq_unread hf3; obtain rfl := h5.eq_unread hf4
  rcases hc with ⟨hc, rfl⟩ | ⟨hc, rfl⟩ <;>
  · sl_exec (disch := first | exact hc)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; isplitr; swap; · iexact H4
    ipureintro
    refine (View.read_writes_eq_canon _ _ _ (View.cover_of_tiledL _ S128x128.size (by sl_kernel_rfl))).trans ?_
    sl_unfold_words
    first
      | rw [View.canon_cons_unit_zero (S := S128x128) zero_off2, View.readCov_unit_zero (S := S128x128) _ zero_off2]
      | rw [View.canon_unit_zero (S := S128x128) zero_off2]
    simp only [View.readAt_eq_ld, h1.read_unread, h2.read_unread, h3.read_unread, h4.read_unread, h5.read_unread,
      View.ld_unit_zero (S := S5000x128) zero_off2, View.ld_unit_zero (S := S5000x1) zero_off2,
      View.ld_unit_zero (S := S128x128) zero_off2, View.ld_unit_zero (S := S1x128) zero_off2]

end

theorem pred_lt2 (t : Fin cfg2.N) : t.val - 1 < cfg2.N := Nat.lt_of_le_of_lt (Nat.sub_le _ _) t.isLt

theorem outsAt2_A (c : Dev nD) : ∀ t : Fin cfg2.N, t.val = 0 → outsAt2 V c t.val t.isLt = k2_pay2 (iblk2 V c 1 t) (iblk2 V c 2 t) (iblk2 V c 0 t) (iblk2 V c 3 t) (k2_pay1 (F := F))
  | ⟨0, _⟩, _ => rfl
  | ⟨n + 1, _⟩, h => absurd h n.succ_ne_zero
theorem outsAt2_B (c : Dev nD) : ∀ t : Fin cfg2.N, t.val ≠ 0 →
    outsAt2 V c t.val t.isLt = k2_pay2 (iblk2 V c 1 t) (iblk2 V c 2 t) (iblk2 V c 0 t) (iblk2 V c 3 t) (outsAt2 V c (t.val - 1) (pred_lt2 t))
  | ⟨0, _⟩, h => absurd rfl h
  | ⟨n + 1, _⟩, _ => rfl

theorem before2_in (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ ∀ d, (dat2 V c).before 3 t d = iblk2 V c 3 t := by
  refine ⟨?_, ?_, ?_, ?_⟩ <;> intro d <;>
  exact ((dat2 V c).before_in_eq_fetched _ rfl (fun _ => rfl) (fun _ _ _ => rfl) (fun _ => rfl) t d).trans rfl

theorem before2_4 (c : Dev nD) (t : Fin cfg2.N) (h0 : t.val ≠ 0) (d) :
    (dat2 V c).before 4 t d = outsAt2 V c (t.val - 1) (pred_lt2 t) := by
  have hN : t.val < 10 := lt_of_lt_of_eq t.isLt (show cfg2.N = 10 from N_2)
  exact (dat2 V c).before_out_kept 4 rfl t h0 (Bool.eq_false_iff.mpr fun h => by have := (flush2_4 _).mp h; dsimp only at this; omega)
    (fun _ => rfl) (fun _ _ => rfl) d

set_option maxHeartbeats 800000 in
theorem sound_body2 (c : Dev nD) (t : Fin cfg2.N) :
    iprop((dat2 V c).Φ t.castSucc ∗ (dat2 V c).owesAt () t.castSucc
      ∗ (∃ d, owns c (st2_0 t) fullShare ((dat2 V c).before 0 t d))
      ∗ (∃ d, owns c (st2_1 t) fullShare ((dat2 V c).before 1 t d))
      ∗ (∃ d, owns c (st2_2 t) fullShare ((dat2 V c).before 2 t d))
      ∗ (∃ d, owns c (st2_3 t) fullShare ((dat2 V c).before 3 t d))
      ∗ (∃ d, owns c (st2_4 t) fullShare ((dat2 V c).before 4 t d)))
    ⊢ wp frame (wpE (defs₀ (F := F)) Variants.none c none) Set.univ (bodyAt2 t) fun _ =>
      iprop((dat2 V c).Φ t.castSucc ∗ (dat2 V c).owesAt () t.castSucc
        ∗ owns c (st2_0 t) fullShare (iblk2 V c 0 t) ∗ owns c (st2_1 t) fullShare (iblk2 V c 1 t)
        ∗ owns c (st2_2 t) fullShare (iblk2 V c 2 t) ∗ owns c (st2_3 t) fullShare (iblk2 V c 3 t)
        ∗ owns c (st2_4 t) fullShare (outsAt2 V c t.val t.isLt)) := by
  unfold bodyAt2
  simp only [before2_in V c t]
  by_cases h0 : t.val = 0 <;>
  · first | rw [outsAt2_A V c t h0] | rw [outsAt2_B V c t h0]
    iintro ⟨HΦ, Ho, ⟨%d0, H0⟩, ⟨%d1, H1⟩, ⟨%d2, H2⟩, ⟨%d3, H3⟩, ⟨%d4, H4⟩⟩
    iapply (sound_kernel2 c _ _ _ _ _ _ (iblk2 V c 0 t) (iblk2 V c 1 t) (iblk2 V c 2 t) (iblk2 V c 3 t) ((dat2 V c).before 4 t d4) _ (by
      first
        | exact .inl ⟨(hcond2_0 t).mpr h0, rfl⟩
        | exact .inr ⟨fun h => h0 ((hcond2_0 t).mp h), (before2_4 V c t h0 d4).symm⟩) Set.univ _)
    iframe H0 H1 H2 H3 H4
    iintro ⟨H0, H1, H2, H3, H4⟩
    iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrR3.lean ====
/-
  Kernel call 3 (the normalised, rectified tile added to the input tile): what each window's buffer holds after the body at every grid point.
-/
import proofs.«413368_j28329604284661_1_alg».proof.Proof.Gen.KernelIdeal.Launch
import proofs.«413368_j28329604284661_1_alg».proof.Proof.Gen.KernelIdeal.Skeleton
import proofs.«413368_j28329604284661_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_tile : Rect S5000x128 := Rect.unit (s := S5000x128) ![0, 0] S5000x128.size inb_S5000x128_S5000x128_0_0
abbrev r3_ids : Rect S5000x1 := Rect.unit (s := S5000x1) ![0, 0] S5000x1.size inb_S5000x1_S5000x1_0_0
abbrev r3_stat : Rect S128x128 := Rect.unit (s := S128x128) ![0, 0] S128x128.size inb_S128x128_S128x128_0_0
abbrev r3_row : Rect S1x128 := Rect.unit (s := S1x128) ![0, 0] S1x128.size inb_S1x128_S1x128_0_0
abbrev r3_out : Rect S5000x128 := Rect.unit (s := S5000x128) ![0, 0] S5000x128.size inb_S5000x128_S5000x128_0_0

/-- The output tile after the body, from the eight input blocks. -/
def out3_8 (x0 : Vec F S5000x128 .f32) (x1 : Vec F S5000x128 .f32) (x2 : Vec F S5000x1 .i32) (x3 : Vec F S128x128 .f32) (x4 : Vec F S128x128 .f32) (x5 : Vec F S1x128 .f32) (x6 : Vec F S1x128 .f32) (x7 : Vec F S1x128 .f32) : Vec F S5000x128 .f32 :=
  View.canon [⟨r3_out, k3_pay1 (View.ld x2 r3_ids) (View.ld x3 r3_stat) (View.ld x4 r3_stat) (View.ld x0 r3_tile) (View.ld x7 r3_row) (View.ld x5 r3_row) (View.ld x6 r3_row) (View.ld x1 r3_tile)⟩]

theorem zero_offsets3 : (![0, 0] : Fin 2 → Nat) = fun _ => 0 := funext fun a => by fin_cases a <;> rfl

theorem out3_8_eq (x0 : Vec F S5000x128 .f32) (x1 : Vec F S5000x128 .f32) (x2 : Vec F S5000x1 .i32) (x3 : Vec F S128x128 .f32) (x4 : Vec F S128x128 .f32) (x5 : Vec F S1x128 .f32) (x6 : Vec F S1x128 .f32) (x7 : Vec F S1x128 .f32) :
    out3_8 x0 x1 x2 x3 x4 x5 x6 x7 = k3_pay1 x2 x3 x4 x0 x7 x5 x6 x1 := by
  unfold out3_8
  rw [View.canon_unit_zero zero_offsets3]
  simp only [View.ld_unit_zero (S := S5000x128) zero_offsets3, View.ld_unit_zero (S := S5000x1) zero_offsets3,
    View.ld_unit_zero (S := S128x128) zero_offsets3, View.ld_unit_zero (S := S1x128) zero_offsets3]

set_option maxHeartbeats 4000000 in

theorem sound_kernel3 (c : Dev nD) (E : Set ℕ) (i : grid3.Coords) {arg1 arg2 arg9 : Memref sig .tc .vmem S5000x128 .f32} {arg3 : Memref sig .tc .vmem S5000x1 .i32}
    {arg4 arg5 : Memref sig .tc .vmem S128x128 .f32} {arg6 arg7 arg8 : Memref sig .tc .vmem S1x128 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole)
    (x0 x1 : Vec F S5000x128 .f32) (x2 : Vec F S5000x1 .i32) (x3 x4 : Vec F S128x128 .f32) (x5 x6 x7 : Vec F S1x128 .f32) (x8 : Vec F S5000x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out3_8 x0 x1 x2 x3 x4 x5 x6 x7)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9) K := by
  simp only [cc3__final_kernel_eq_skeleton]; unfold cc3__final_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (View.cover_of_tiled _ S5000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

theorem before3_in (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t)
      ∧ (∀ d, (dat3 V c).before 4 t d = iblk3 V c 4 t) ∧ (∀ d, (dat3 V c).before 5 t d = iblk3 V c 5 t)
      ∧ (∀ d, (dat3 V c).before 6 t d = iblk3 V c 6 t) ∧ ∀ d, (dat3 V c).before 7 t d = iblk3 V c 7 t := by
  refine ⟨?_, ?_, ?_, ?_, ?_, ?_, ?_, ?_⟩ <;> intro d <;>
  exact ((dat3 V c).before_in_eq_fetched _ rfl (fun _ => rfl) (fun _ _ _ => rfl) (fun _ => rfl) t d).trans rfl

set_option maxHeartbeats 1000000 in
theorem sound_body3 (c : Dev nD) (t : Fin cfg3.N) :
    iprop((dat3 V c).Φ t.castSucc ∗ (dat3 V c).owesAt () t.castSucc
      ∗ (∃ d, owns c (st3_0 t) fullShare ((dat3 V c).before 0 t d))
      ∗ (∃ d, owns c (st3_1 t) fullShare ((dat3 V c).before 1 t d))
      ∗ (∃ d, owns c (st3_2 t) fullShare ((dat3 V c).before 2 t d))
      ∗ (∃ d, owns c (st3_3 t) fullShare ((dat3 V c).before 3 t d))
      ∗ (∃ d, owns c (st3_4 t) fullShare ((dat3 V c).before 4 t d))
      ∗ (∃ d, owns c (st3_5 t) fullShare ((dat3 V c).before 5 t d))
      ∗ (∃ d, owns c (st3_6 t) fullShare ((dat3 V c).before 6 t d))
      ∗ (∃ d, owns c (st3_7 t) fullShare ((dat3 V c).before 7 t d))
      ∗ (∃ d, owns c (st3_8 t) fullShare ((dat3 V c).before 8 t d)))
    ⊢ wp frame (wpE (defs₀ (F := F)) Variants.none c none) Set.univ (bodyAt3 t) fun _ =>
      iprop((dat3 V c).Φ t.castSucc ∗ (dat3 V c).owesAt () t.castSucc
        ∗ owns c (st3_0 t) fullShare (iblk3 V c 0 t) ∗ owns c (st3_1 t) fullShare (iblk3 V c 1 t)
        ∗ owns c (st3_2 t) fullShare (iblk3 V c 2 t) ∗ owns c (st3_3 t) fullShare (iblk3 V c 3 t)
        ∗ owns c (st3_4 t) fullShare (iblk3 V c 4 t) ∗ owns c (st3_5 t) fullShare (iblk3 V c 5 t)
        ∗ owns c (st3_6 t) fullShare (iblk3 V c 6 t) ∗ owns c (st3_7 t) fullShare (iblk3 V c 7 t)
        ∗ owns c (st3_8 t) fullShare ((dat3 V c).after 8 t)) := by
  unfold bodyAt3
  simp only [before3_in V c t]
  rw [after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _ _)
  iframe H0 H1 H2 H3 H4 H5 H6 H7 H8
  iintro ⟨H0, H1, H2, H3, H4, H5, H6, H7, H8⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.FrRun.lean ====
/-
  @main as eleven items in order: seven stretches of host operations and four kernel calls. `Wk` is a core's buffers after the k-th item; every
  weakly fair execution ends with every buffer at `W11`, and a buffer no item writes ends as launched.
-/
import proofs.«413368_j28329604284661_1_alg».proof.Proof.FrR0
import proofs.«413368_j28329604284661_1_alg».proof.Proof.FrR1
import proofs.«413368_j28329604284661_1_alg».proof.Proof.FrR2
import proofs.«413368_j28329604284661_1_alg».proof.Proof.FrR3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part0_ops1 (W1 m ρ c)
abbrev W3 : Dev nD → Valuation τ sig (Elt F) := fun c => StableHlo.after main_part0_ops2 (W2 m ρ c)
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev W6 : Dev nD → Valuation τ sig (Elt F) := fun c => StableHlo.after main_part1_ops1 (W5 m ρ c)
abbrev V6 : (c : Dev nD) → (b : Ref sig .tc) → Buf (Elt F) ((c : Thread nD τ).loc b) := fun c b => W6 m ρ c b
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev W8 : Dev nD → Valuation τ sig (Elt F) := fun c => StableHlo.after main_part1_ops2 (W7 m ρ c)
abbrev V8 : (c : Dev nD) → (b : Ref sig .tc) → Buf (Elt F) ((c : Thread nD τ).loc b) := fun c b => W8 m ρ c b
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev W10 : Dev nD → Valuation τ sig (Elt F) := fun c => StableHlo.after main_part1_ops3 (W9 m ρ c)
abbrev V10 : (c : Dev nD) → (b : Ref sig .tc) → Buf (Elt F) ((c : Thread nD τ).loc b) := fun c b => W10 m ρ c b
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb

abbrev main_part0_ops0_W : List (Ref sig .tc) := [main_v0, main_v1, main_v2, main_v3, main_cst, main_v4, main_v5, main_v6, main_cst_0, main_v7, main_v8, main_cst_1, main_v9, main_v10, main_v11, main_cst_2]
abbrev main_part0_ops1_W : List (Ref sig .tc) := [main_call0_v0, main_call0_v1, main_v12]
abbrev main_part0_ops2_W : List (Ref sig .tc) := [main_c, main_v13, main_v14, main_c_3, main_v15, main_v16, main_v17, main_v18, main_v19, main_v20, main_c_4, main_v21, main_v22, main_c_5, main_v23, main_v24, main_v25, main_v26, main_v27, main_v28, main_v29, main_c_6, main_v30, main_v31, main_c_7, main_v32, main_v33, main_v34, main_v35, main_v36, main_v37, main_v38, main_cst_8, main_v39, main_v40, main_v41, main_v42, main_c_9, main_v43, main_v44, main_c_10, main_v45, main_v46]
abbrev main_part1_ops0_W : List (Ref sig .tc) := [main_v47, main_v48, main_v49, main_v50, main_v51, main_cst_11, main_v52, main_v53, main_v54, main_v55, main_c_12, main_v56, main_v57, main_c_13, main_v58, main_v59, main_v60, main_v61, main_v62, main_v63, main_v64, main_cst_14, main_v65, main_v66, main_v67, main_v68, main_v69, main_v70, main_v71, main_v72, main_v73]
abbrev main_part1_ops1_W : List (Ref sig .tc) := [main_v75]
abbrev main_part1_ops2_W : List (Ref sig .tc) := [main_cst_15, main_v77, main_v78, main_v79, main_v80, main_v81]
abbrev main_part1_ops3_W : List (Ref sig .tc) := [main_v83, main_v84, main_v85, main_v86]

abbrev Fresh (ops : List (HloOp τ sig (Elt F))) : Prop := ops.Forall fun op => op.fresh = ∅
abbrev Writes (W : List (Ref sig .tc)) (ops : List (HloOp τ sig (Elt F))) : Prop :=
  ops.Forall fun op => op.writes ⊆ (W.map (Proc.devRef (τ := τ) .tc)).toFinset

theorem host_fresh : Fresh (F := F) main_part0_ops0 ∧ Fresh (F := F) main_part0_ops1 ∧ Fresh (F := F) main_part0_ops2 ∧ Fresh (F := F) main_part1_ops0 ∧ Fresh (F := F) main_part1_ops1 ∧ Fresh (F := F) main_part1_ops2 ∧ Fresh (F := F) main_part1_ops3 := by
  simp only [Fresh, List.Forall]; repeat' constructor

/-- Each operation of a stretch writes one buffer, and that buffer is on the stretch's list. -/
theorem host_writes : Writes (F := F) main_part0_ops0_W main_part0_ops0
    ∧ Writes (F := F) main_part0_ops1_W main_part0_ops1
    ∧ Writes (F := F) main_part0_ops2_W main_part0_ops2
    ∧ Writes (F := F) main_part1_ops0_W main_part1_ops0
    ∧ Writes (F := F) main_part1_ops1_W main_part1_ops1
    ∧ Writes (F := F) main_part1_ops2_W main_part1_ops2
    ∧ Writes (F := F) main_part1_ops3_W main_part1_ops3 := by
  simp only [Writes, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)

theorem W1_of (c : Dev nD) (r : Ref sig .tc) (h : r ∉ main_part0_ops0_W) : W1 m ρ c (Proc.devRef .tc r) = W0 m ρ c (Proc.devRef .tc r) :=
  StableHlo.after_of_writes_sub main_part0_ops0 _ (host_writes (F := F)).1 h
theorem W2_of (c : Dev nD) (r : Ref sig .tc) (h : r ∉ main_part0_ops1_W) : W2 m ρ c (Proc.devRef .tc r) = W1 m ρ c (Proc.devRef .tc r) :=
  StableHlo.after_of_writes_sub main_part0_ops1 _ (host_writes (F := F)).2.1 h
theorem W3_of (c : Dev nD) (r : Ref sig .tc) (h : r ∉ main_part0_ops2_W) : W3 m ρ c (Proc.devRef .tc r) = W2 m ρ c (Proc.devRef .tc r) :=
  StableHlo.after_of_writes_sub main_part0_ops2 _ (host_writes (F := F)).2.2.1 h
theorem W4_of (c : Dev nD) (r : Ref sig .tc) (h : r ∉ main_part1_ops0_W) : W4 m ρ c (Proc.devRef .tc r) = W3 m ρ c (Proc.devRef .tc r) :=
  StableHlo.after_of_writes_sub main_part1_ops0 _ (host_writes (F := F)).2.2.2.1 h
theorem W6_of (c : Dev nD) (r : Ref sig .tc) (h : r ∉ main_part1_ops1_W) : W6 m ρ c (Proc.devRef .tc r) = W5 m ρ c (Proc.devRef .tc r) :=
  StableHlo.after_of_writes_sub main_part1_ops1 _ (host_writes (F := F)).2.2.2.2.1 h
theorem W8_of (c : Dev nD) (r : Ref sig .tc) (h : r ∉ main_part1_ops2_W) : W8 m ρ c (Proc.devRef .tc r) = W7 m ρ c (Proc.devRef .tc r) :=
  StableHlo.after_of_writes_sub main_part1_ops2 _ (host_writes (F := F)).2.2.2.2.2.1 h
theorem W10_of (c : Dev nD) (r : Ref sig .tc) (h : r ∉ main_part1_ops3_W) : W10 m ρ c (Proc.devRef .tc r) = W9 m ρ c (Proc.devRef .tc r) :=
  StableHlo.after_of_writes_sub main_part1_ops3 _ (host_writes (F := F)).2.2.2.2.2.2 h

/-- No host stretch writes `r`, and no kernel call has an output on it. -/
abbrev Kept (r : Ref sig .tc) : Prop :=
  (r ∉ main_part0_ops0_W ∧ r ∉ main_part0_ops1_W ∧ r ∉ main_part0_ops2_W ∧ r ∉ main_part1_ops0_W ∧ r ∉ main_part1_ops1_W ∧ r ∉ main_part1_ops2_W ∧ r ∉ main_part1_ops3_W)
    ∧ (∀ w, Pipeline.arrRef spec0 w = r → (cfg0.win w).isOut = false)
    ∧ (∀ w, Pipeline.arrRef spec1 w = r → (cfg1.win w).isOut = false)
    ∧ (∀ w, Pipeline.arrRef spec2 w = r → (cfg2.win w).isOut = false)
    ∧ (∀ w, Pipeline.arrRef spec3 w = r → (cfg3.win w).isOut = false)

/-- A kernel call changes only its outputs' arrays. -/
theorem withArrays_kept {gr W : Nat} (win : Fin W → Pipeline.WinSpec sig gr) (hinj : Function.Injective (Pipeline.arrRef win)) (c : Dev nD)
    (V : Valuation τ sig (Elt F)) (A : (w : Fin W) → Buf (Elt F) ((win w).arr.view.loc (c : Thread nD τ))) (r : Ref sig .tc)
    (h : ∀ w, Pipeline.arrRef win w = r → A w = V (Proc.devRef .tc (Pipeline.arrRef win w))) :
    Pipeline.withArrays win c V A (Proc.devRef .tc r) = V (Proc.devRef .tc r) := by
  by_cases e : ∃ w, Pipeline.arrRef win w = r
  · obtain ⟨w, rfl⟩ := e
    exact (Pipeline.withArrays_arr win hinj c V A w).trans (h w rfl)
  · exact Pipeline.withArrays_of_ne win c V A r fun w hw => e ⟨w, hw⟩

/-- A buffer the run leaves alone ends as launched. -/
theorem W11_kept (c : Dev nD) (r : Ref sig .tc) (h : Kept r) : W11 m ρ c (Proc.devRef .tc r) = m ((c : Thread nD τ).loc r) := by
  obtain ⟨⟨a0, a1, a2, a3, a4, a5, a6⟩, h0, h1, h2, h3⟩ := h
  calc W11 m ρ c (Proc.devRef .tc r)
    _ = W10 m ρ c (Proc.devRef .tc r) := withArrays_kept spec3 launch3.win.arr_inj c _ _ r fun w e =>
          ((dat3 (V10 m ρ) c).arrAt_in w (h3 w e) _).trans (A_eq3 (V10 m ρ) c w)
    _ = W9 m ρ c (Proc.devRef .tc r) := W10_of m ρ c r a6
    _ = W8 m ρ c (Proc.devRef .tc r) := withArrays_kept spec2 launch2.win.arr_inj c _ _ r fun w e =>
          ((dat2 (V8 m ρ) c).arrAt_in w (h2 w e) _).trans (A_eq2 (V8 m ρ) c w)
    _ = W7 m ρ c (Proc.devRef .tc r) := W8_of m ρ c r a5
    _ = W6 m ρ c (Proc.devRef .tc r) := withArrays_kept spec1 launch1.win.arr_inj c _ _ r fun w e =>
          ((dat1 (V6 m ρ) c).arrAt_in w (h1 w e) _).trans (A_eq1 (V6 m ρ) c w)
    _ = W5 m ρ c (Proc.devRef .tc r) := W6_of m ρ c r a4
    _ = W4 m ρ c (Proc.devRef .tc r) := withArrays_kept spec0 launch0.win.arr_inj c _ _ r fun w e =>
          ((dat0 (V4 m ρ) c).arrAt_in w (h0 w e) _).trans (A_eq0 (V4 m ρ) c w)
    _ = W3 m ρ c (Proc.devRef .tc r) := W4_of m ρ c r a3
    _ = W2 m ρ c (Proc.devRef .tc r) := W3_of m ρ c r a2
    _ = W1 m ρ c (Proc.devRef .tc r) := W2_of m ρ c r a1
    _ = W0 m ρ c (Proc.devRef .tc r) := W1_of m ρ c r a0
    _ = m ((c : Thread nD τ).loc r) := rfl

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
  | ⟨2, _⟩ => fun c => dat2 (V8 m ρ) c
  | ⟨3, _⟩ => fun c => dat3 (V10 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : Fresh ops) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

/-- Kernel call `p` as an item of the run, entered with the buffers at `Wi` and left with them at `Wo`. -/
def reg (p : Fin 4) (kit : Pipeline.LaunchFacts (nD := nD) (τ := τ) cfgs p) (Wi Wo : Dev nD → Valuation τ sig (Elt F))
    (hb : ∀ c, BodyObligation (pdats m ρ p c) (defs₀ (F := F)) 𝒱₀ () Set.univ)
    (hq : ∀ c w, (pdats m ρ p c).q w = fullShare) (howed : ∀ c t, (pdats m ρ p c).owed t = 0)
    (hrec : ∀ c i, (pdats m ρ p c).recorded i = Set.univ)
    (hΦ : ∀ c i, (pdats m ρ p c).Φ i = Pipeline.ΦA (pcfgs (F := F) p).spec c)
    (hA : ∀ c w, (pdats m ρ p c).A w = Wi c (Proc.devRef .tc (Pipeline.arrRef (pcfgs (F := F) p).spec w)))
    (hF : ∀ c w, (pdats m ρ p c).arrAt w (cfgs p).N = Wo c (Proc.devRef .tc (Pipeline.arrRef (pcfgs (F := F) p).spec w)))
    (hrest : ∀ c b, (∀ w, Pipeline.arrRef (pcfgs (F := F) p).spec w ≠ b) → Wo c (Proc.devRef .tc b) = Wi c (Proc.devRef .tc b)) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ L lv p howed
  pre := T Wi
  post := T Wo
  X c := iprop(∃ r, prngReg c r)
  Y c := iprop(∃ r, prngReg c r)
  Z c := Pipeline.unscopedRest (Ix := Unit) (Name := ℕ) (U := UR sig nD τ) (Lvl := ℕ) (pcfgs (F := F) p).spec c fun b => Wi c b
  hentry c := by
    rw [Pipeline.ownSems0_none]
    have hsplit := Pipeline.arrays_of_unscopedBufs (p := p) (pcfgs (F := F)) adm (pdats m ρ) kit.win kit.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [howed c]
    icases HO with ⟨%W, HO⟩; iexists W; isplitr; · ipureintro; exact fun _ _ => Or.inl (by rw [hrec c 0]; trivial)
    iexact HO
  hin c := by
    rw [hΦ c 0]; unfold Pipeline.ΦA
    iintro ⟨Hp, -, Hr⟩
    iframe
  hout c := by
    rw [Pipeline.ownSems0_none, hΦ c (Fin.last _)]; unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      kit.win kit.arr_whole c (pdats m ρ) ((pdats m ρ p c).share_full (hq c))
      (fun b => Wi c b) (fun b => Wo c b) ((pdats m ρ p c).arrAt · (cfgs p).N) (hF c)
      fun b hb => hrest c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

abbrev segs : List (Pipeline.Seg (pcfgs (F := F)) adm (pdats m ρ) () defs₀ 𝒱₀ L lv) :=
  [ .host (hseg main_part0_ops0 main_part0_ops0_sub host_fresh.1 (W0 m ρ)),
    .host (hseg main_part0_ops1 main_part0_ops1_sub host_fresh.2.1 (W1 m ρ)),
    .host (hseg main_part0_ops2 main_part0_ops2_sub host_fresh.2.2.1 (W2 m ρ)),
    .host (hseg main_part1_ops0 main_part1_ops0_sub host_fresh.2.2.2.1 (W3 m ρ)),
    .region (reg m ρ 0 launch0 (W4 m ρ) (W5 m ρ) (body_obligation0 (V4 m ρ)) (fun _ _ => rfl) (fun _ _ => rfl) (fun _ _ => rfl)
      (fun _ _ => rfl) (fun _ _ => rfl) (fun c w => (W5_arr m ρ c w).symm) (W5_of_ne m ρ)),
    .host (hseg main_part1_ops1 main_part1_ops1_sub host_fresh.2.2.2.2.1 (W5 m ρ)),
    .region (reg m ρ 1 launch1 (W6 m ρ) (W7 m ρ) (body_obligation1 (V6 m ρ)) (fun _ _ => rfl) (fun _ _ => rfl) (fun _ _ => rfl)
      (fun _ _ => rfl) (fun _ _ => rfl) (fun c w => (W7_arr m ρ c w).symm) (W7_of_ne m ρ)),
    .host (hseg main_part1_ops2 main_part1_ops2_sub host_fresh.2.2.2.2.2.1 (W7 m ρ)),
    .region (reg m ρ 2 launch2 (W8 m ρ) (W9 m ρ) (body_obligation2 (V8 m ρ)) (fun _ _ => rfl) (fun _ _ => rfl) (fun _ _ => rfl)
      (fun _ _ => rfl) (fun _ _ => rfl) (fun c w => (W9_arr m ρ c w).symm) (W9_of_ne m ρ)),
    .host (hseg main_part1_ops3 main_part1_ops3_sub host_fresh.2.2.2.2.2.2 (W9 m ρ)),
    .region (reg m ρ 3 launch3 (W10 m ρ) (W11 m ρ) (body_obligation3 (V10 m ρ)) (fun _ _ => rfl) (fun _ _ => rfl) (fun _ _ => rfl)
      (fun _ _ => rfl) (fun _ _ => rfl) (fun c w => (W11_arr m ρ c w).symm) (W11_of_ne m ρ)) ]
theorem main_run (c : Dev nD) : main (F := F) c = Pipeline.Seg.run (segs m ρ) := (main_chain_windows c).trans (by chain_rfl)

set_option backward.isDefEq.respectTransparency.types false in

/-- Every weakly fair execution of @main ends, without a fault, with every buffer at `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show T (W11 m ρ) c ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- In such a final state a buffer the run leaves alone holds what it was launched with. -/
theorem end_kept (c : Dev nD) (m' : (ℓ : Loc nD τ sig) → Buf (Elt F) ℓ)
    (h : ∀ b ∈ Pipeline.ucRefs τ sig, m' (((c : Thread nD τ)).1, b) = W11 m ρ c b) (b : Ref sig .tc)
    (hb : ¬ (Proc.devRef .tc b : DevRef τ sig).isScoped ∧ Kept b) : m' ((c.tc : Thread nD τ).loc b) = m ((c.tc : Thread nD τ).loc b) :=
  (h _ (mem_uc b hb.1)).trans (W11_kept m ρ c b hb.2)

end Cert.KernelIdeal.Hand

end
-- ==== Proof.KFrR0.lean ====
/-
  Kernel call 0 (the combination of the four hops with the four weight matrices, on tiles of 5000 rows): what each window's buffer holds after the body at every grid point.
-/
import proofs.«413368_j28329604284661_1_alg».proof.Proof.Gen.Kernel.Launch
import proofs.«413368_j28329604284661_1_alg».proof.Proof.Gen.Kernel.Skeleton
import proofs.«413368_j28329604284661_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rH0 : Rect S4x5000x128 := Rect.unit (s := S4x5000x128) ![0, 0, 0] S1x5000x128.size inb_S4x5000x128_S1x5000x128_0_0_0
abbrev rW0 : Rect S4x128x128 := Rect.unit (s := S4x128x128) ![0, 0, 0] S1x128x128.size inb_S4x128x128_S1x128x128_0_0_0
abbrev rH1 : Rect S4x5000x128 := Rect.unit (s := S4x5000x128) ![1, 0, 0] S1x5000x128.size inb_S4x5000x128_S1x5000x128_1_0_0
abbrev rW1 : Rect S4x128x128 := Rect.unit (s := S4x128x128) ![1, 0, 0] S1x128x128.size inb_S4x128x128_S1x128x128_1_0_0
abbrev rH2 : Rect S4x5000x128 := Rect.unit (s := S4x5000x128) ![2, 0, 0] S1x5000x128.size inb_S4x5000x128_S1x5000x128_2_0_0
abbrev rW2 : Rect S4x128x128 := Rect.unit (s := S4x128x128) ![2, 0, 0] S1x128x128.size inb_S4x128x128_S1x128x128_2_0_0
abbrev rH3 : Rect S4x5000x128 := Rect.unit (s := S4x5000x128) ![3, 0, 0] S1x5000x128.size inb_S4x5000x128_S1x5000x128_3_0_0
abbrev rW3 : Rect S4x128x128 := Rect.unit (s := S4x128x128) ![3, 0, 0] S1x128x128.size inb_S4x128x128_S1x128x128_3_0_0
abbrev rb : Rect S1x128 := Rect.unit (s := S1x128) ![0, 0] S1x128.size inb_S1x128_S1x128_0_0
abbrev r0_out : Rect S5000x128 := Rect.unit (s := S5000x128) ![0, 0] S5000x128.size inb_S5000x128_S5000x128_0_0

/-- The output tile after the body, from the three input blocks. -/
def out0_3 (x0 : Vec F S4x5000x128 .f32) (x1 : Vec F S4x128x128 .f32) (x2 : Vec F S1x128 .f32) : Vec F S5000x128 .f32 :=
  View.canon [⟨r0_out, k0_pay1 (k0_pay2 (View.ld x0 rH0) (View.ld x1 rW0) (View.ld x0 rH1) (View.ld x1 rW1)
    (View.ld x0 rH2) (View.ld x1 rW2) (View.ld x0 rH3) (View.ld x1 rW3)) (k0_pay3 (View.ld x2 rb))⟩]

theorem zero2 : (![0, 0] : Fin 2 → Nat) = fun _ => 0 := funext fun a => by fin_cases a <;> rfl

theorem out0_3_eq (x0 : Vec F S4x5000x128 .f32) (x1 : Vec F S4x128x128 .f32) (x2 : Vec F S1x128 .f32) :
    out0_3 x0 x1 x2 = k0_pay1 (k0_pay2 (View.ld x0 rH0) (View.ld x1 rW0) (View.ld x0 rH1) (View.ld x1 rW1)
      (View.ld x0 rH2) (View.ld x1 rW2) (View.ld x0 rH3) (View.ld x1 rW3)) (k0_pay3 x2) := by
  unfold out0_3
  rw [View.canon_unit_zero zero2]
  rw [View.ld_unit_zero (S := S1x128) zero2]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

set_option maxHeartbeats 1000000 in

theorem sound_kernel0 (c : Dev nD) (E : Set ℕ) (i : grid0.Coords)
    (arg1 : Memref sig .tc .vmem S4x5000x128 .f32) (harg1 : arg1.IsWhole)
    (arg2 : Memref sig .tc .vmem S4x128x128 .f32) (harg2 : arg2.IsWhole)
    (arg3 : Memref sig .tc .vmem S1x128 .f32) (harg3 : arg3.IsWhole)
    (arg4 : Memref sig .tc .vmem S5000x128 .f32) (harg4 : arg4.IsWhole)
    (x0 : Vec F S4x5000x128 .f32) (x1 : Vec F S4x128x128 .f32) (x2 : Vec F S1x128 .f32) (xo : Vec F S5000x128 .f32) (K : PUnit → sProp 𝕄) :
    iprop(owns c arg1 fullShare x0 ∗ owns c arg2 fullShare x1
        ∗ owns c arg3 fullShare x2 ∗ owns c arg4 fullShare xo
        ∗ (iprop(owns c arg1 fullShare x0 ∗ owns c arg2 fullShare x1
            ∗ owns c arg3 fullShare x2 ∗ owns c arg4 fullShare (out0_3 x0 x1 x2)) -∗ K ⟨⟩))
      ⊢ wp frame (wpE (defs₀ (F := F)) Variants.none c none) E (cc0__tagconv_combine_kernel i arg1 harg1 arg2 harg2 arg3 harg3 arg4 harg4) K := by
  simp only [cc0__tagconv_combine_kernel_eq_skeleton]; unfold cc0__tagconv_combine_kernel_skel
  unfold owns
  iintro ⟨⟨%f0, %hf0, H0⟩, ⟨%f1, %hf1, H1⟩, ⟨%f2, %hf2, H2⟩, ⟨%f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_3 (c : Dev nD) (t : Fin cfg0.N) : (dat0 V c).after 3 t = out0_3 (iblk0 V c 0 t) (iblk0 V c 1 t) (iblk0 V c 2 t) := by dsimp only [dat0]

theorem before0_in (c : Dev nD) (t : Fin cfg0.N) : (∀ d, (dat0 V c).before 0 t d = iblk0 V c 0 t)
    ∧ (∀ d, (dat0 V c).before 1 t d = iblk0 V c 1 t) ∧ ∀ d, (dat0 V c).before 2 t d = iblk0 V c 2 t := by
  refine ⟨?_, ?_, ?_⟩ <;> intro d <;>
  exact ((dat0 V c).before_in_eq_fetched _ rfl (fun _ => rfl) (fun _ _ _ => rfl) (fun _ => rfl) t d).trans rfl

theorem sound_body0 (c : Dev nD) (t : Fin cfg0.N) :
    iprop((dat0 V c).Φ t.castSucc ∗ (dat0 V c).owesAt () t.castSucc
      ∗ (∃ d, owns c (st0_0 t) fullShare ((dat0 V c).before 0 t d))
      ∗ (∃ d, owns c (st0_1 t) fullShare ((dat0 V c).before 1 t d))
      ∗ (∃ d, owns c (st0_2 t) fullShare ((dat0 V c).before 2 t d))
      ∗ (∃ d, owns c (st0_3 t) fullShare ((dat0 V c).before 3 t d)))
    ⊢ wp frame (wpE (defs₀ (F := F)) Variants.none c none) Set.univ (bodyAt0 t) fun _ =>
      iprop((dat0 V c).Φ t.castSucc ∗ (dat0 V c).owesAt () t.castSucc
        ∗ owns c (st0_0 t) fullShare (iblk0 V c 0 t) ∗ owns c (st0_1 t) fullShare (iblk0 V c 1 t)
        ∗ owns c (st0_2 t) fullShare (iblk0 V c 2 t)
        ∗ owns c (st0_3 t) fullShare ((dat0 V c).after 3 t)) := by
  unfold bodyAt0
  rw [after0_3]
  simp only [before0_in V c t]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _ _)
  iframe H0 H1 H2 H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrR1.lean ====
/-
  Kernel call 1 (per-graph sums and node counts, accumulated over the ten row tiles): what each window's buffer holds after the body at every grid point.
-/
import proofs.«413368_j28329604284661_1_alg».proof.Proof.Gen.Kernel.Launch
import proofs.«413368_j28329604284661_1_alg».proof.Proof.Gen.Kernel.Skeleton
import proofs.«413368_j28329604284661_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two accumulators after grid point n: the tiles' contributions folded from zero. -/
def outsAt1 (c : Dev nD) : (n : ℕ) → n < cfg1.N → Vec F S128x128 .f32 × Vec F S128x1 .f32
  | 0, hn => (k1_pay4 (iblk1 V c 1 ⟨0, hn⟩) (iblk1 V c 0 ⟨0, hn⟩) (k1_pay1 (F := F)), k1_pay5 (iblk1 V c 1 ⟨0, hn⟩) (k1_pay2 (F := F)))
  | n + 1, hn => (k1_pay4 (iblk1 V c 1 ⟨n + 1, hn⟩) (iblk1 V c 0 ⟨n + 1, hn⟩) (outsAt1 c n (Nat.lt_of_succ_lt hn)).1,
      k1_pay5 (iblk1 V c 1 ⟨n + 1, hn⟩) (outsAt1 c n (Nat.lt_of_succ_lt hn)).2)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

private theorem hz1 : (![0, 0] : Fin 2 → Nat) = fun _ => 0 := funext fun a => by fin_cases a <;> rfl

section
variable (c : Dev nD) (i : grid1.Coords)
  {a1 : Memref sig .tc .vmem S5000x128 .f32} (h1 : a1.IsWhole) {a2 : Memref sig .tc .vmem S5000x1 .i32} (h2 : a2.IsWhole)
  {a3 : Memref sig .tc .vmem S128x128 .f32} (h3 : a3.IsWhole) {a4 : Memref sig .tc .vmem S128x1 .f32} (h4 : a4.IsWhole)
  (x0 : Vec F S5000x128 .f32) (x1 : Vec F S5000x1 .i32) (xo2 : Vec F S128x128 .f32) (xo3 : Vec F S128x1 .f32)

set_option maxHeartbeats 1000000 in

theorem sound_kernel1 (z2 : Vec F S128x128 .f32) (z3 : Vec F S128x1 .f32)
    (hc : cond1_0 i ∧ z2 = k1_pay1 ∧ z3 = k1_pay2 ∨ ¬cond1_0 i ∧ z2 = xo2 ∧ z3 = xo3) (E : Set ℕ) (K : PUnit → sProp 𝕄) :
    iprop(owns c a1 fullShare x0 ∗ owns c a2 fullShare x1
        ∗ owns c a3 fullShare xo2 ∗ owns c a4 fullShare xo3
        ∗ (iprop(owns c a1 fullShare x0 ∗ owns c a2 fullShare x1
            ∗ owns c a3 fullShare (k1_pay4 x1 x0 z2) ∗ owns c a4 fullShare (k1_pay5 x1 z3)) -∗ K ⟨⟩))
      ⊢ wp frame (wpE (defs₀ (F := F)) Variants.none c none) E (cc1__stats_kernel i a1 h1 a2 h2 a3 h3 a4 h4) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, Hk⟩
  obtain rfl := h1.eq_unread hf0; obtain rfl := h2.eq_unread hf1
  obtain rfl := h3.eq_unread hf2; obtain rfl := h4.eq_unread hf3
  rcases hc with ⟨hc, rfl, rfl⟩ | ⟨hc, rfl, rfl⟩ <;>
  · sl_exec (disch := first | exact hc)
    sl_step
    iapply Hk
    isplitl [H0]
    · iexists _; isplitr; · ipureintro; exact h1.read_unread _
      iexact H0
    isplitl [H1]
    · iexists _; isplitr; · ipureintro; exact h2.read_unread _
      iexact H1
    isplitl [H2] <;>
    · iexists _; isplitr; swap; · iassumption
      ipureintro
      refine (View.read_writes_eq_canon _ _ _ (View.cover_of_tiledL _ (Shape.size _) (by sl_kernel_rfl))).trans ?_
      sl_unfold_words
      first
        | rw [View.canon_cons_unit_zero hz1, View.readCov_unit_zero _ hz1]
        | rw [View.canon_unit_zero hz1]
      simp only [View.readAt_eq_ld, h1.read_unread, h2.read_unread, h3.read_unread, h4.read_unread, View.ld_unit_zero (S := S5000x128) hz1,
        View.ld_unit_zero (S := S5000x1) hz1, View.ld_unit_zero (S := S128x128) hz1, View.ld_unit_zero (S := S128x1) hz1]

end

theorem pred_lt1 (t : Fin cfg1.N) : t.val - 1 < cfg1.N := Nat.lt_of_le_of_lt (Nat.sub_le _ _) t.isLt

theorem outsAt1_A (c : Dev nD) : ∀ t : Fin cfg1.N, t.val = 0 → outsAt1 V c t.val t.isLt =
    (k1_pay4 (iblk1 V c 1 t) (iblk1 V c 0 t) (k1_pay1 (F := F)), k1_pay5 (iblk1 V c 1 t) (k1_pay2 (F := F)))
  | ⟨0, _⟩, _ => rfl
  | ⟨n + 1, _⟩, h => absurd h n.succ_ne_zero
theorem outsAt1_B (c : Dev nD) : ∀ t : Fin cfg1.N, t.val ≠ 0 → outsAt1 V c t.val t.isLt =
    (k1_pay4 (iblk1 V c 1 t) (iblk1 V c 0 t) (outsAt1 V c (t.val - 1) (pred_lt1 t)).1,
      k1_pay5 (iblk1 V c 1 t) (outsAt1 V c (t.val - 1) (pred_lt1 t)).2)
  | ⟨0, _⟩, h => absurd rfl h
  | ⟨n + 1, _⟩, _ => rfl

theorem before1_in (c : Dev nD) (t : Fin cfg1.N) :
    (∀ d, (dat1 V c).before 0 t d = iblk1 V c 0 t) ∧ ∀ d, (dat1 V c).before 1 t d = iblk1 V c 1 t := by
  constructor <;> intro d <;>
  exact ((dat1 V c).before_in_eq_fetched _ rfl (fun _ => rfl) (fun _ _ _ => rfl) (fun _ => rfl) t d).trans rfl

theorem before1_2 (c : Dev nD) (t : Fin cfg1.N) (h0 : t.val ≠ 0) (d) :
    (dat1 V c).before 2 t d = (outsAt1 V c (t.val - 1) (pred_lt1 t)).1 := by
  have hN : t.val < 10 := lt_of_lt_of_eq t.isLt (show cfg1.N = 10 from N_1)
  exact (dat1 V c).before_out_kept 2 rfl t h0 (Bool.eq_false_iff.mpr fun h => by have := (flush1_2 _).mp h; dsimp only at this; omega)
    (fun _ => rfl) (fun _ _ => rfl) d
theorem before1_3 (c : Dev nD) (t : Fin cfg1.N) (h0 : t.val ≠ 0) (d) :
    (dat1 V c).before 3 t d = (outsAt1 V c (t.val - 1) (pred_lt1 t)).2 := by
  have hN : t.val < 10 := lt_of_lt_of_eq t.isLt (show cfg1.N = 10 from N_1)
  exact (dat1 V c).before_out_kept 3 rfl t h0 (Bool.eq_false_iff.mpr fun h => by have := (flush1_3 _).mp h; dsimp only at this; omega)
    (fun _ => rfl) (fun _ _ => rfl) d

set_option maxHeartbeats 800000 in

theorem sound_body1 (c : Dev nD) (t : Fin cfg1.N) :
    iprop((dat1 V c).Φ t.castSucc ∗ (dat1 V c).owesAt () t.castSucc
      ∗ (∃ d, owns c (st1_0 t) fullShare ((dat1 V c).before 0 t d))
      ∗ (∃ d, owns c (st1_1 t) fullShare ((dat1 V c).before 1 t d))
      ∗ (∃ d, owns c (st1_2 t) fullShare ((dat1 V c).before 2 t d))
      ∗ (∃ d, owns c (st1_3 t) fullShare ((dat1 V c).before 3 t d)))
    ⊢ wp frame (wpE (defs₀ (F := F)) Variants.none c none) Set.univ (bodyAt1 t) fun _ =>
      iprop((dat1 V c).Φ t.castSucc ∗ (dat1 V c).owesAt () t.castSucc
        ∗ owns c (st1_0 t) fullShare (iblk1 V c 0 t) ∗ owns c (st1_1 t) fullShare (iblk1 V c 1 t)
        ∗ owns c (st1_2 t) fullShare (outsAt1 V c t.val t.isLt).1
        ∗ owns c (st1_3 t) fullShare (outsAt1 V c t.val t.isLt).2) := by
  unfold bodyAt1
  simp only [before1_in V c t]
  by_cases h0 : t.val = 0 <;>
  · first | simp only [outsAt1_A V c t h0] | simp only [outsAt1_B V c t h0]
    iintro ⟨HΦ, Ho, ⟨%d0, H0⟩, ⟨%d1, H1⟩, ⟨%d2, H2⟩, ⟨%d3, H3⟩⟩
    iapply (sound_kernel1 c _ _ _ _ _ (iblk1 V c 0 t) (iblk1 V c 1 t) ((dat1 V c).before 2 t d2) ((dat1 V c).before 3 t d3) _ _ (by
      first
        | exact .inl ⟨(hcond1_0 t).mpr h0, rfl, rfl⟩
        | exact .inr ⟨fun h => h0 ((hcond1_0 t).mp h), (before1_2 V c t h0 d2).symm, (before1_3 V c t h0 d3).symm⟩) Set.univ _)
    iframe H0 H1 H2 H3
    iintro ⟨H0, H1, H2, H3⟩
    iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFrR2.lean ====
/-
  Kernel call 2 (per-graph sums of squared centred entries, accumulated over the ten row tiles): what each window's buffer holds after the body at every grid point.
-/
import proofs.«413368_j28329604284661_1_alg».proof.Proof.Gen.Kernel.Launch
import proofs.«413368_j28329604284661_1_alg».proof.Proof.Gen.Kernel.Skeleton
import proofs.«413368_j28329604284661_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after grid point n: the tiles' contributions folded from zero. -/
def outsAt2 (c : Dev nD) : (n : ℕ) → n < cfg2.N → Vec F S128x128 .f32
  | 0, hn => k2_pay2 (iblk2 V c 1 ⟨0, hn⟩) (iblk2 V c 2 ⟨0, hn⟩) (iblk2 V c 0 ⟨0, hn⟩) (iblk2 V c 3 ⟨0, hn⟩) (k2_pay1 (F := F))
  | n + 1, hn => k2_pay2 (iblk2 V c 1 ⟨n + 1, hn⟩) (iblk2 V c 2 ⟨n + 1, hn⟩) (iblk2 V c 0 ⟨n + 1, hn⟩) (iblk2 V c 3 ⟨n + 1, hn⟩) (outsAt2 c n (Nat.lt_of_succ_lt hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_4 (c : Dev nD) (t : Fin cfg2.N) : (dat2 V c).after 4 t = outsAt2 V c t.val t.isLt := by dsimp only [dat2]

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

theorem zero_off2 : (![0, 0] : Fin 2 → Nat) = fun _ => 0 := funext fun a => by fin_cases a <;> rfl

section
variable (c : Dev nD) (i : grid2.Coords)
  {a1 : Memref sig .tc .vmem S5000x128 .f32} (h1 : a1.IsWhole) {a2 : Memref sig .tc .vmem S5000x1 .i32} (h2 : a2.IsWhole)
  {a3 : Memref sig .tc .vmem S128x128 .f32} (h3 : a3.IsWhole) {a4 : Memref sig .tc .vmem S1x128 .f32} (h4 : a4.IsWhole)
  {a5 : Memref sig .tc .vmem S128x128 .f32} (h5 : a5.IsWhole)
  (xo : Vec F S5000x128 .f32) (xb : Vec F S5000x1 .i32) (xmean : Vec F S128x128 .f32) (xscale : Vec F S1x128 .f32) (prev : Vec F S128x128 .f32)

set_option maxHeartbeats 1000000 in

theorem sound_kernel2 (z : Vec F S128x128 .f32) (hc : cond2_0 i ∧ z = k2_pay1 ∨ ¬cond2_0 i ∧ z = prev) (E : Set ℕ) (K : PUnit → sProp 𝕄) :
    iprop(owns c a1 fullShare xo ∗ owns c a2 fullShare xb
        ∗ owns c a3 fullShare xmean ∗ owns c a4 fullShare xscale
        ∗ owns c a5 fullShare prev
        ∗ (iprop(owns c a1 fullShare xo ∗ owns c a2 fullShare xb
        ∗ owns c a3 fullShare xmean ∗ owns c a4 fullShare xscale
        ∗ owns c a5 fullShare (k2_pay2 xb xmean xo xscale z)) -∗ K ⟨⟩))
      ⊢ wp frame (wpE (defs₀ (F := F)) Variants.none c none) E (cc2__var_kernel i a1 h1 a2 h2 a3 h3 a4 h4 a5 h5) K := by
  simp only [cc2__var_kernel_eq_skeleton]; unfold cc2__var_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h1.eq_unread hf0; obtain rfl := h2.eq_unread hf1
  obtain rfl := h3.eq_unread hf2; obtain rfl := h4.eq_unread hf3; obtain rfl := h5.eq_unread hf4
  rcases hc with ⟨hc, rfl⟩ | ⟨hc, rfl⟩ <;>
  · sl_exec (disch := first | exact hc)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; isplitr; swap; · iexact H4
    ipureintro
    refine (View.read_writes_eq_canon _ _ _ (View.cover_of_tiledL _ S128x128.size (by sl_kernel_rfl))).trans ?_
    sl_unfold_words
    first
      | rw [View.canon_cons_unit_zero (S := S128x128) zero_off2, View.readCov_unit_zero (S := S128x128) _ zero_off2]
      | rw [View.canon_unit_zero (S := S128x128) zero_off2]
    simp only [View.readAt_eq_ld, h1.read_unread, h2.read_unread, h3.read_unread, h4.read_unread, h5.read_unread,
      View.ld_unit_zero (S := S5000x128) zero_off2, View.ld_unit_zero (S := S5000x1) zero_off2,
      View.ld_unit_zero (S := S128x128) zero_off2, View.ld_unit_zero (S := S1x128) zero_off2]

end

theorem pred_lt2 (t : Fin cfg2.N) : t.val - 1 < cfg2.N := Nat.lt_of_le_of_lt (Nat.sub_le _ _) t.isLt

theorem outsAt2_A (c : Dev nD) : ∀ t : Fin cfg2.N, t.val = 0 → outsAt2 V c t.val t.isLt = k2_pay2 (iblk2 V c 1 t) (iblk2 V c 2 t) (iblk2 V c 0 t) (iblk2 V c 3 t) (k2_pay1 (F := F))
  | ⟨0, _⟩, _ => rfl
  | ⟨n + 1, _⟩, h => absurd h n.succ_ne_zero
theorem outsAt2_B (c : Dev nD) : ∀ t : Fin cfg2.N, t.val ≠ 0 →
    outsAt2 V c t.val t.isLt = k2_pay2 (iblk2 V c 1 t) (iblk2 V c 2 t) (iblk2 V c 0 t) (iblk2 V c 3 t) (outsAt2 V c (t.val - 1) (pred_lt2 t))
  | ⟨0, _⟩, h => absurd rfl h
  | ⟨n + 1, _⟩, _ => rfl

theorem before2_in (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ ∀ d, (dat2 V c).before 3 t d = iblk2 V c 3 t := by
  refine ⟨?_, ?_, ?_, ?_⟩ <;> intro d <;>
  exact ((dat2 V c).before_in_eq_fetched _ rfl (fun _ => rfl) (fun _ _ _ => rfl) (fun _ => rfl) t d).trans rfl

theorem before2_4 (c : Dev nD) (t : Fin cfg2.N) (h0 : t.val ≠ 0) (d) :
    (dat2 V c).before 4 t d = outsAt2 V c (t.val - 1) (pred_lt2 t) := by
  have hN : t.val < 10 := lt_of_lt_of_eq t.isLt (show cfg2.N = 10 from N_2)
  exact (dat2 V c).before_out_kept 4 rfl t h0 (Bool.eq_false_iff.mpr fun h => by have := (flush2_4 _).mp h; dsimp only at this; omega)
    (fun _ => rfl) (fun _ _ => rfl) d

set_option maxHeartbeats 800000 in
theorem sound_body2 (c : Dev nD) (t : Fin cfg2.N) :
    iprop((dat2 V c).Φ t.castSucc ∗ (dat2 V c).owesAt () t.castSucc
      ∗ (∃ d, owns c (st2_0 t) fullShare ((dat2 V c).before 0 t d))
      ∗ (∃ d, owns c (st2_1 t) fullShare ((dat2 V c).before 1 t d))
      ∗ (∃ d, owns c (st2_2 t) fullShare ((dat2 V c).before 2 t d))
      ∗ (∃ d, owns c (st2_3 t) fullShare ((dat2 V c).before 3 t d))
      ∗ (∃ d, owns c (st2_4 t) fullShare ((dat2 V c).before 4 t d)))
    ⊢ wp frame (wpE (defs₀ (F := F)) Variants.none c none) Set.univ (bodyAt2 t) fun _ =>
      iprop((dat2 V c).Φ t.castSucc ∗ (dat2 V c).owesAt () t.castSucc
        ∗ owns c (st2_0 t) fullShare (iblk2 V c 0 t) ∗ owns c (st2_1 t) fullShare (iblk2 V c 1 t)
        ∗ owns c (st2_2 t) fullShare (iblk2 V c 2 t) ∗ owns c (st2_3 t) fullShare (iblk2 V c 3 t)
        ∗ owns c (st2_4 t) fullShare (outsAt2 V c t.val t.isLt)) := by
  unfold bodyAt2
  simp only [before2_in V c t]
  by_cases h0 : t.val = 0 <;>
  · first | rw [outsAt2_A V c t h0] | rw [outsAt2_B V c t h0]
    iintro ⟨HΦ, Ho, ⟨%d0, H0⟩, ⟨%d1, H1⟩, ⟨%d2, H2⟩, ⟨%d3, H3⟩, ⟨%d4, H4⟩⟩
    iapply (sound_kernel2 c _ _ _ _ _ _ (iblk2 V c 0 t) (iblk2 V c 1 t) (iblk2 V c 2 t) (iblk2 V c 3 t) ((dat2 V c).before 4 t d4) _ (by
      first
        | exact .inl ⟨(hcond2_0 t).mpr h0, rfl⟩
        | exact .inr ⟨fun h => h0 ((hcond2_0 t).mp h), (before2_4 V c t h0 d4).symm⟩) Set.univ _)
    iframe H0 H1 H2 H3 H4
    iintro ⟨H0, H1, H2, H3, H4⟩
    iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KFrR3.lean ====
/-
  Kernel call 3 (the normalised, rectified tile added to the input tile): what each window's buffer holds after the body at every grid point.
-/
import proofs.«413368_j28329604284661_1_alg».proof.Proof.Gen.Kernel.Launch
import proofs.«413368_j28329604284661_1_alg».proof.Proof.Gen.Kernel.Skeleton
import proofs.«413368_j28329604284661_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_tile : Rect S5000x128 := Rect.unit (s := S5000x128) ![0, 0] S5000x128.size inb_S5000x128_S5000x128_0_0
abbrev r3_ids : Rect S5000x1 := Rect.unit (s := S5000x1) ![0, 0] S5000x1.size inb_S5000x1_S5000x1_0_0
abbrev r3_stat : Rect S128x128 := Rect.unit (s := S128x128) ![0, 0] S128x128.size inb_S128x128_S128x128_0_0
abbrev r3_row : Rect S1x128 := Rect.unit (s := S1x128) ![0, 0] S1x128.size inb_S1x128_S1x128_0_0
abbrev r3_out : Rect S5000x128 := Rect.unit (s := S5000x128) ![0, 0] S5000x128.size inb_S5000x128_S5000x128_0_0

/-- The output tile after the body, from the eight input blocks. -/
def out3_8 (x0 : Vec F S5000x128 .f32) (x1 : Vec F S5000x128 .f32) (x2 : Vec F S5000x1 .i32) (x3 : Vec F S128x128 .f32) (x4 : Vec F S128x128 .f32) (x5 : Vec F S1x128 .f32) (x6 : Vec F S1x128 .f32) (x7 : Vec F S1x128 .f32) : Vec F S5000x128 .f32 :=
  View.canon [⟨r3_out, k3_pay1 (View.ld x2 r3_ids) (View.ld x3 r3_stat) (View.ld x4 r3_stat) (View.ld x0 r3_tile) (View.ld x7 r3_row) (View.ld x5 r3_row) (View.ld x6 r3_row) (View.ld x1 r3_tile)⟩]

theorem zero_offsets3 : (![0, 0] : Fin 2 → Nat) = fun _ => 0 := funext fun a => by fin_cases a <;> rfl

theorem out3_8_eq (x0 : Vec F S5000x128 .f32) (x1 : Vec F S5000x128 .f32) (x2 : Vec F S5000x1 .i32) (x3 : Vec F S128x128 .f32) (x4 : Vec F S128x128 .f32) (x5 : Vec F S1x128 .f32) (x6 : Vec F S1x128 .f32) (x7 : Vec F S1x128 .f32) :
    out3_8 x0 x1 x2 x3 x4 x5 x6 x7 = k3_pay1 x2 x3 x4 x0 x7 x5 x6 x1 := by
  unfold out3_8
  rw [View.canon_unit_zero zero_offsets3]
  simp only [View.ld_unit_zero (S := S5000x128) zero_offsets3, View.ld_unit_zero (S := S5000x1) zero_offsets3,
    View.ld_unit_zero (S := S128x128) zero_offsets3, View.ld_unit_zero (S := S1x128) zero_offsets3]

set_option maxHeartbeats 4000000 in

theorem sound_kernel3 (c : Dev nD) (E : Set ℕ) (i : grid3.Coords) {arg1 arg2 arg9 : Memref sig .tc .vmem S5000x128 .f32} {arg3 : Memref sig .tc .vmem S5000x1 .i32}
    {arg4 arg5 : Memref sig .tc .vmem S128x128 .f32} {arg6 arg7 arg8 : Memref sig .tc .vmem S1x128 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole)
    (x0 x1 : Vec F S5000x128 .f32) (x2 : Vec F S5000x1 .i32) (x3 x4 : Vec F S128x128 .f32) (x5 x6 x7 : Vec F S1x128 .f32) (x8 : Vec F S5000x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out3_8 x0 x1 x2 x3 x4 x5 x6 x7)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9) K := by
  simp only [cc3__final_kernel_eq_skeleton]; unfold cc3__final_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (View.cover_of_tiled _ S5000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

theorem before3_in (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t)
      ∧ (∀ d, (dat3 V c).before 4 t d = iblk3 V c 4 t) ∧ (∀ d, (dat3 V c).before 5 t d = iblk3 V c 5 t)
      ∧ (∀ d, (dat3 V c).before 6 t d = iblk3 V c 6 t) ∧ ∀ d, (dat3 V c).before 7 t d = iblk3 V c 7 t := by
  refine ⟨?_, ?_, ?_, ?_, ?_, ?_, ?_, ?_⟩ <;> intro d <;>
  exact ((dat3 V c).before_in_eq_fetched _ rfl (fun _ => rfl) (fun _ _ _ => rfl) (fun _ => rfl) t d).trans rfl

set_option maxHeartbeats 1000000 in
theorem sound_body3 (c : Dev nD) (t : Fin cfg3.N) :
    iprop((dat3 V c).Φ t.castSucc ∗ (dat3 V c).owesAt () t.castSucc
      ∗ (∃ d, owns c (st3_0 t) fullShare ((dat3 V c).before 0 t d))
      ∗ (∃ d, owns c (st3_1 t) fullShare ((dat3 V c).before 1 t d))
      ∗ (∃ d, owns c (st3_2 t) fullShare ((dat3 V c).before 2 t d))
      ∗ (∃ d, owns c (st3_3 t) fullShare ((dat3 V c).before 3 t d))
      ∗ (∃ d, owns c (st3_4 t) fullShare ((dat3 V c).before 4 t d))
      ∗ (∃ d, owns c (st3_5 t) fullShare ((dat3 V c).before 5 t d))
      ∗ (∃ d, owns c (st3_6 t) fullShare ((dat3 V c).before 6 t d))
      ∗ (∃ d, owns c (st3_7 t) fullShare ((dat3 V c).before 7 t d))
      ∗ (∃ d, owns c (st3_8 t) fullShare ((dat3 V c).before 8 t d)))
    ⊢ wp frame (wpE (defs₀ (F := F)) Variants.none c none) Set.univ (bodyAt3 t) fun _ =>
      iprop((dat3 V c).Φ t.castSucc ∗ (dat3 V c).owesAt () t.castSucc
        ∗ owns c (st3_0 t) fullShare (iblk3 V c 0 t) ∗ owns c (st3_1 t) fullShare (iblk3 V c 1 t)
        ∗ owns c (st3_2 t) fullShare (iblk3 V c 2 t) ∗ owns c (st3_3 t) fullShare (iblk3 V c 3 t)
        ∗ owns c (st3_4 t) fullShare (iblk3 V c 4 t) ∗ owns c (st3_5 t) fullShare (iblk3 V c 5 t)
        ∗ owns c (st3_6 t) fullShare (iblk3 V c 6 t) ∗ owns c (st3_7 t) fullShare (iblk3 V c 7 t)
        ∗ owns c (st3_8 t) fullShare ((dat3 V c).after 8 t)) := by
  unfold bodyAt3
  simp only [before3_in V c t]
  rw [after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _ _)
  iframe H0 H1 H2 H3 H4 H5 H6 H7 H8
  iintro ⟨H0, H1, H2, H3, H4, H5, H6, H7, H8⟩
  iframe

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KFrRun.lean ====
/-
  @main as eleven items in order: seven stretches of host operations and four kernel calls. `Wk` is a core's buffers after the k-th item; every
  weakly fair execution ends with every buffer at `W11`, and a buffer no item writes ends as launched.
-/
import proofs.«413368_j28329604284661_1_alg».proof.Proof.KFrR0
import proofs.«413368_j28329604284661_1_alg».proof.Proof.KFrR1
import proofs.«413368_j28329604284661_1_alg».proof.Proof.KFrR2
import proofs.«413368_j28329604284661_1_alg».proof.Proof.KFrR3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part0_ops1 (W1 m ρ c)
abbrev W3 : Dev nD → Valuation τ sig (Elt F) := fun c => StableHlo.after main_part0_ops2 (W2 m ρ c)
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev W6 : Dev nD → Valuation τ sig (Elt F) := fun c => StableHlo.after main_part1_ops1 (W5 m ρ c)
abbrev V6 : (c : Dev nD) → (b : Ref sig .tc) → Buf (Elt F) ((c : Thread nD τ).loc b) := fun c b => W6 m ρ c b
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev W8 : Dev nD → Valuation τ sig (Elt F) := fun c => StableHlo.after main_part1_ops2 (W7 m ρ c)
abbrev V8 : (c : Dev nD) → (b : Ref sig .tc) → Buf (Elt F) ((c : Thread nD τ).loc b) := fun c b => W8 m ρ c b
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev W10 : Dev nD → Valuation τ sig (Elt F) := fun c => StableHlo.after main_part1_ops3 (W9 m ρ c)
abbrev V10 : (c : Dev nD) → (b : Ref sig .tc) → Buf (Elt F) ((c : Thread nD τ).loc b) := fun c b => W10 m ρ c b
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb

abbrev main_part0_ops0_W : List (Ref sig .tc) := [main_v0, main_v1, main_v2, main_v3, main_cst, main_v4, main_v5, main_v6, main_cst_0, main_v7, main_v8, main_cst_1, main_v9, main_v10, main_v11, main_cst_2]
abbrev main_part0_ops1_W : List (Ref sig .tc) := [main_call0_v0, main_call0_v1, main_v12]
abbrev main_part0_ops2_W : List (Ref sig .tc) := [main_c, main_v13, main_v14, main_c_3, main_v15, main_v16, main_v17, main_v18, main_v19, main_v20, main_c_4, main_v21, main_v22, main_c_5, main_v23, main_v24, main_v25, main_v26, main_v27, main_v28, main_v29, main_c_6, main_v30, main_v31, main_c_7, main_v32, main_v33, main_v34, main_v35, main_v36, main_v37, main_v38, main_cst_8, main_v39, main_v40, main_v41, main_v42, main_c_9, main_v43, main_v44, main_c_10, main_v45, main_v46]
abbrev main_part1_ops0_W : List (Ref sig .tc) := [main_v47, main_v48, main_v49, main_v50, main_v51, main_cst_11, main_v52, main_v53, main_v54, main_v55, main_c_12, main_v56, main_v57, main_c_13, main_v58, main_v59, main_v60, main_v61, main_v62, main_v63, main_v64, main_cst_14, main_v65, main_v66, main_v67, main_v68, main_v69, main_v70, main_v71, main_v72, main_v73]
abbrev main_part1_ops1_W : List (Ref sig .tc) := [main_v75]
abbrev main_part1_ops2_W : List (Ref sig .tc) := [main_cst_15, main_v77, main_v78, main_v79, main_v80, main_v81]
abbrev main_part1_ops3_W : List (Ref sig .tc) := [main_v83, main_v84, main_v85, main_v86]

abbrev Fresh (ops : List (HloOp τ sig (Elt F))) : Prop := ops.Forall fun op => op.fresh = ∅
abbrev Writes (W : List (Ref sig .tc)) (ops : List (HloOp τ sig (Elt F))) : Prop :=
  ops.Forall fun op => op.writes ⊆ (W.map (Proc.devRef (τ := τ) .tc)).toFinset

theorem host_fresh : Fresh (F := F) main_part0_ops0 ∧ Fresh (F := F) main_part0_ops1 ∧ Fresh (F := F) main_part0_ops2 ∧ Fresh (F := F) main_part1_ops0 ∧ Fresh (F := F) main_part1_ops1 ∧ Fresh (F := F) main_part1_ops2 ∧ Fresh (F := F) main_part1_ops3 := by
  simp only [Fresh, List.Forall]; repeat' constructor

/-- Each operation of a stretch writes one buffer, and that buffer is on the stretch's list. -/
theorem host_writes : Writes (F := F) main_part0_ops0_W main_part0_ops0
    ∧ Writes (F := F) main_part0_ops1_W main_part0_ops1
    ∧ Writes (F := F) main_part0_ops2_W main_part0_ops2
    ∧ Writes (F := F) main_part1_ops0_W main_part1_ops0
    ∧ Writes (F := F) main_part1_ops1_W main_part1_ops1
    ∧ Writes (F := F) main_part1_ops2_W main_part1_ops2
    ∧ Writes (F := F) main_part1_ops3_W main_part1_ops3 := by
  simp only [Writes, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)

theorem W1_of (c : Dev nD) (r : Ref sig .tc) (h : r ∉ main_part0_ops0_W) : W1 m ρ c (Proc.devRef .tc r) = W0 m ρ c (Proc.devRef .tc r) :=
  StableHlo.after_of_writes_sub main_part0_ops0 _ (host_writes (F := F)).1 h
theorem W2_of (c : Dev nD) (r : Ref sig .tc) (h : r ∉ main_part0_ops1_W) : W2 m ρ c (Proc.devRef .tc r) = W1 m ρ c (Proc.devRef .tc r) :=
  StableHlo.after_of_writes_sub main_part0_ops1 _ (host_writes (F := F)).2.1 h
theorem W3_of (c : Dev nD) (r : Ref sig .tc) (h : r ∉ main_part0_ops2_W) : W3 m ρ c (Proc.devRef .tc r) = W2 m ρ c (Proc.devRef .tc r) :=
  StableHlo.after_of_writes_sub main_part0_ops2 _ (host_writes (F := F)).2.2.1 h
theorem W4_of (c : Dev nD) (r : Ref sig .tc) (h : r ∉ main_part1_ops0_W) : W4 m ρ c (Proc.devRef .tc r) = W3 m ρ c (Proc.devRef .tc r) :=
  StableHlo.after_of_writes_sub main_part1_ops0 _ (host_writes (F := F)).2.2.2.1 h
theorem W6_of (c : Dev nD) (r : Ref sig .tc) (h : r ∉ main_part1_ops1_W) : W6 m ρ c (Proc.devRef .tc r) = W5 m ρ c (Proc.devRef .tc r) :=
  StableHlo.after_of_writes_sub main_part1_ops1 _ (host_writes (F := F)).2.2.2.2.1 h
theorem W8_of (c : Dev nD) (r : Ref sig .tc) (h : r ∉ main_part1_ops2_W) : W8 m ρ c (Proc.devRef .tc r) = W7 m ρ c (Proc.devRef .tc r) :=
  StableHlo.after_of_writes_sub main_part1_ops2 _ (host_writes (F := F)).2.2.2.2.2.1 h
theorem W10_of (c : Dev nD) (r : Ref sig .tc) (h : r ∉ main_part1_ops3_W) : W10 m ρ c (Proc.devRef .tc r) = W9 m ρ c (Proc.devRef .tc r) :=
  StableHlo.after_of_writes_sub main_part1_ops3 _ (host_writes (F := F)).2.2.2.2.2.2 h

/-- No host stretch writes `r`, and no kernel call has an output on it. -/
abbrev Kept (r : Ref sig .tc) : Prop :=
  (r ∉ main_part0_ops0_W ∧ r ∉ main_part0_ops1_W ∧ r ∉ main_part0_ops2_W ∧ r ∉ main_part1_ops0_W ∧ r ∉ main_part1_ops1_W ∧ r ∉ main_part1_ops2_W ∧ r ∉ main_part1_ops3_W)
    ∧ (∀ w, Pipeline.arrRef spec0 w = r → (cfg0.win w).isOut = false)
    ∧ (∀ w, Pipeline.arrRef spec1 w = r → (cfg1.win w).isOut = false)
    ∧ (∀ w, Pipeline.arrRef spec2 w = r → (cfg2.win w).isOut = false)
    ∧ (∀ w, Pipeline.arrRef spec3 w = r → (cfg3.win w).isOut = false)

/-- A kernel call changes only its outputs' arrays. -/
theorem withArrays_kept {gr W : Nat} (win : Fin W → Pipeline.WinSpec sig gr) (hinj : Function.Injective (Pipeline.arrRef win)) (c : Dev nD)
    (V : Valuation τ sig (Elt F)) (A : (w : Fin W) → Buf (Elt F) ((win w).arr.view.loc (c : Thread nD τ))) (r : Ref sig .tc)
    (h : ∀ w, Pipeline.arrRef win w = r → A w = V (Proc.devRef .tc (Pipeline.arrRef win w))) :
    Pipeline.withArrays win c V A (Proc.devRef .tc r) = V (Proc.devRef .tc r) := by
  by_cases e : ∃ w, Pipeline.arrRef win w = r
  · obtain ⟨w, rfl⟩ := e
    exact (Pipeline.withArrays_arr win hinj c V A w).trans (h w rfl)
  · exact Pipeline.withArrays_of_ne win c V A r fun w hw => e ⟨w, hw⟩

/-- A buffer the run leaves alone ends as launched. -/
theorem W11_kept (c : Dev nD) (r : Ref sig .tc) (h : Kept r) : W11 m ρ c (Proc.devRef .tc r) = m ((c : Thread nD τ).loc r) := by
  obtain ⟨⟨a0, a1, a2, a3, a4, a5, a6⟩, h0, h1, h2, h3⟩ := h
  calc W11 m ρ c (Proc.devRef .tc r)
    _ = W10 m ρ c (Proc.devRef .tc r) := withArrays_kept spec3 launch3.win.arr_inj c _ _ r fun w e =>
          ((dat3 (V10 m ρ) c).arrAt_in w (h3 w e) _).trans (A_eq3 (V10 m ρ) c w)
    _ = W9 m ρ c (Proc.devRef .tc r) := W10_of m ρ c r a6
    _ = W8 m ρ c (Proc.devRef .tc r) := withArrays_kept spec2 launch2.win.arr_inj c _ _ r fun w e =>
          ((dat2 (V8 m ρ) c).arrAt_in w (h2 w e) _).trans (A_eq2 (V8 m ρ) c w)
    _ = W7 m ρ c (Proc.devRef .tc r) := W8_of m ρ c r a5
    _ = W6 m ρ c (Proc.devRef .tc r) := withArrays_kept spec1 launch1.win.arr_inj c _ _ r fun w e =>
          ((dat1 (V6 m ρ) c).arrAt_in w (h1 w e) _).trans (A_eq1 (V6 m ρ) c w)
    _ = W5 m ρ c (Proc.devRef .tc r) := W6_of m ρ c r a4
    _ = W4 m ρ c (Proc.devRef .tc r) := withArrays_kept spec0 launch0.win.arr_inj c _ _ r fun w e =>
          ((dat0 (V4 m ρ) c).arrAt_in w (h0 w e) _).trans (A_eq0 (V4 m ρ) c w)
    _ = W3 m ρ c (Proc.devRef .tc r) := W4_of m ρ c r a3
    _ = W2 m ρ c (Proc.devRef .tc r) := W3_of m ρ c r a2
    _ = W1 m ρ c (Proc.devRef .tc r) := W2_of m ρ c r a1
    _ = W0 m ρ c (Proc.devRef .tc r) := W1_of m ρ c r a0
    _ = m ((c : Thread nD τ).loc r) := rfl

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
  | ⟨2, _⟩ => fun c => dat2 (V8 m ρ) c
  | ⟨3, _⟩ => fun c => dat3 (V10 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : Fresh ops) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

/-- Kernel call `p` as an item of the run, entered with the buffers at `Wi` and left with them at `Wo`. -/
def reg (p : Fin 4) (kit : Pipeline.LaunchFacts (nD := nD) (τ := τ) cfgs p) (Wi Wo : Dev nD → Valuation τ sig (Elt F))
    (hb : ∀ c, BodyObligation (pdats m ρ p c) (defs₀ (F := F)) 𝒱₀ () Set.univ)
    (hq : ∀ c w, (pdats m ρ p c).q w = fullShare) (howed : ∀ c t, (pdats m ρ p c).owed t = 0)
    (hrec : ∀ c i, (pdats m ρ p c).recorded i = Set.univ)
    (hΦ : ∀ c i, (pdats m ρ p c).Φ i = Pipeline.ΦA (pcfgs (F := F) p).spec c)
    (hA : ∀ c w, (pdats m ρ p c).A w = Wi c (Proc.devRef .tc (Pipeline.arrRef (pcfgs (F := F) p).spec w)))
    (hF : ∀ c w, (pdats m ρ p c).arrAt w (cfgs p).N = Wo c (Proc.devRef .tc (Pipeline.arrRef (pcfgs (F := F) p).spec w)))
    (hrest : ∀ c b, (∀ w, Pipeline.arrRef (pcfgs (F := F) p).spec w ≠ b) → Wo c (Proc.devRef .tc b) = Wi c (Proc.devRef .tc b)) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ L lv p howed
  pre := T Wi
  post := T Wo
  X c := iprop(∃ r, prngReg c r)
  Y c := iprop(∃ r, prngReg c r)
  Z c := Pipeline.unscopedRest (Ix := Unit) (Name := ℕ) (U := UR sig nD τ) (Lvl := ℕ) (pcfgs (F := F) p).spec c fun b => Wi c b
  hentry c := by
    rw [Pipeline.ownSems0_none]
    have hsplit := Pipeline.arrays_of_unscopedBufs (p := p) (pcfgs (F := F)) adm (pdats m ρ) kit.win kit.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [howed c]
    icases HO with ⟨%W, HO⟩; iexists W; isplitr; · ipureintro; exact fun _ _ => Or.inl (by rw [hrec c 0]; trivial)
    iexact HO
  hin c := by
    rw [hΦ c 0]; unfold Pipeline.ΦA
    iintro ⟨Hp, -, Hr⟩
    iframe
  hout c := by
    rw [Pipeline.ownSems0_none, hΦ c (Fin.last _)]; unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      kit.win kit.arr_whole c (pdats m ρ) ((pdats m ρ p c).share_full (hq c))
      (fun b => Wi c b) (fun b => Wo c b) ((pdats m ρ p c).arrAt · (cfgs p).N) (hF c)
      fun b hb => hrest c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

abbrev segs : List (Pipeline.Seg (pcfgs (F := F)) adm (pdats m ρ) () defs₀ 𝒱₀ L lv) :=
  [ .host (hseg main_part0_ops0 main_part0_ops0_sub host_fresh.1 (W0 m ρ)),
    .host (hseg main_part0_ops1 main_part0_ops1_sub host_fresh.2.1 (W1 m ρ)),
    .host (hseg main_part0_ops2 main_part0_ops2_sub host_fresh.2.2.1 (W2 m ρ)),
    .host (hseg main_part1_ops0 main_part1_ops0_sub host_fresh.2.2.2.1 (W3 m ρ)),
    .region (reg m ρ 0 launch0 (W4 m ρ) (W5 m ρ) (body_obligation0 (V4 m ρ)) (fun _ _ => rfl) (fun _ _ => rfl) (fun _ _ => rfl)
      (fun _ _ => rfl) (fun _ _ => rfl) (fun c w => (W5_arr m ρ c w).symm) (W5_of_ne m ρ)),
    .host (hseg main_part1_ops1 main_part1_ops1_sub host_fresh.2.2.2.2.1 (W5 m ρ)),
    .region (reg m ρ 1 launch1 (W6 m ρ) (W7 m ρ) (body_obligation1 (V6 m ρ)) (fun _ _ => rfl) (fun _ _ => rfl) (fun _ _ => rfl)
      (fun _ _ => rfl) (fun _ _ => rfl) (fun c w => (W7_arr m ρ c w).symm) (W7_of_ne m ρ)),
    .host (hseg main_part1_ops2 main_part1_ops2_sub host_fresh.2.2.2.2.2.1 (W7 m ρ)),
    .region (reg m ρ 2 launch2 (W8 m ρ) (W9 m ρ) (body_obligation2 (V8 m ρ)) (fun _ _ => rfl) (fun _ _ => rfl) (fun _ _ => rfl)
      (fun _ _ => rfl) (fun _ _ => rfl) (fun c w => (W9_arr m ρ c w).symm) (W9_of_ne m ρ)),
    .host (hseg main_part1_ops3 main_part1_ops3_sub host_fresh.2.2.2.2.2.2 (W9 m ρ)),
    .region (reg m ρ 3 launch3 (W10 m ρ) (W11 m ρ) (body_obligation3 (V10 m ρ)) (fun _ _ => rfl) (fun _ _ => rfl) (fun _ _ => rfl)
      (fun _ _ => rfl) (fun _ _ => rfl) (fun c w => (W11_arr m ρ c w).symm) (W11_of_ne m ρ)) ]
theorem main_run (c : Dev nD) : main (F := F) c = Pipeline.Seg.run (segs m ρ) := (main_chain_windows c).trans (by chain_rfl)

set_option backward.isDefEq.respectTransparency.types false in

/-- Every weakly fair execution of @main ends, without a fault, with every buffer at `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show T (W11 m ρ) c ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- In such a final state a buffer the run leaves alone holds what it was launched with. -/
theorem end_kept (c : Dev nD) (m' : (ℓ : Loc nD τ sig) → Buf (Elt F) ℓ)
    (h : ∀ b ∈ Pipeline.ucRefs τ sig, m' (((c : Thread nD τ)).1, b) = W11 m ρ c b) (b : Ref sig .tc)
    (hb : ¬ (Proc.devRef .tc b : DevRef τ sig).isScoped ∧ Kept b) : m' ((c.tc : Thread nD τ).loc b) = m ((c.tc : Thread nD τ).loc b) :=
  (h _ (mem_uc b hb.1)).trans (W11_kept m ρ c b hb.2)

end Cert.Kernel.Hand

end
-- ==== Proof.Spec.lean ====
/-
  The block's arithmetic over the extended reals, entry by entry. A per-graph total is a sum over ALL nodes weighted by the
  0/1 indicator that the node's graph label (a 32-bit word) is that graph's number.
-/
import proofs.«413368_j28329604284661_1_alg».proof.KernelIdeal
import Idealize.ShloMosaic.PureOps.Ideal
import Idealize.ShloMosaic.Lib.ValueIdx

noncomputable section

namespace Cert.KernelIdeal.Spec

open Cert.KernelIdeal Idealize.ShloMosaic Idealize.ShloMosaic.ValueIdx

def row {a b : Nat} (i : (⟨2, ![a, b]⟩ : Shape).Idx) : Fin a := ⟨(i 0).val, idx2_lt0 i⟩

def col {a b : Nat} (i : (⟨2, ![a, b]⟩ : Shape).Idx) : Fin b := ⟨(i 1).val, idx2_lt1 i⟩
theorem eq_ix2_row_col {a b : Nat} (i : (⟨2, ![a, b]⟩ : Shape).Idx) : i = ix2 (row i) (col i) := eq_ix2 i
@[simp] theorem row_ix2 {a b : Nat} (p : Fin a) (q : Fin b) : row (ix2 p q) = p := rfl
@[simp] theorem col_ix2 {a b : Nat} (p : Fin a) (q : Fin b) : col (ix2 p q) = q := rfl

/-- One if the label word `b` is graph `g`'s number, zero otherwise. -/
def oh (b : BitVec 32) (g : Fin 128) : EReal := if b = BitVec.ofNat 32 g.val then 1 else 0

/-- Node n's combined row: hop k's row times weight matrix k, summed over the four hops, plus the bias. -/
def comb (H : S4x50000x128.Idx → EReal) (Wt : S4x128x128.Idx → EReal) (b : S1x128.Idx → EReal)
    (n : Fin 50000) (f : Fin 128) : EReal :=
  (∑ k : Fin 128, H (ix3 0 n k) * Wt (ix3 0 k f)) + (∑ k : Fin 128, H (ix3 1 n k) * Wt (ix3 1 k f))
    + (∑ k : Fin 128, H (ix3 2 n k) * Wt (ix3 2 k f)) + (∑ k : Fin 128, H (ix3 3 n k) * Wt (ix3 3 k f)) + b (ix2 0 f)
def combA (H : S4x50000x128.Idx → EReal) (Wt : S4x128x128.Idx → EReal) (b : S1x128.Idx → EReal) : S50000x128.Idx → EReal :=
  fun i => comb H Wt b (row i) (col i)

/-- Graph g's total of the node rows. -/
def gsum (o : S50000x128.Idx → EReal) (bt : S50000x1.Idx → BitVec 32) (g : Fin 128) (f : Fin 128) : EReal :=
  ∑ n : Fin 50000, oh (bt (ix2 n 0)) g * o (ix2 n f)
def gsumA (o : S50000x128.Idx → EReal) (bt : S50000x1.Idx → BitVec 32) : S128x128.Idx → EReal :=
  fun i => gsum o bt (row i) (col i)

/-- Graph g's node count. -/
def gcnt (bt : S50000x1.Idx → BitVec 32) (g : Fin 128) : EReal := ∑ n : Fin 50000, oh (bt (ix2 n 0)) g
def gcntA (bt : S50000x1.Idx → BitVec 32) : S128x1.Idx → EReal := fun i => gcnt bt (row i)

/-- A per-graph total over the graph's node count, an empty graph's count read as one. -/
def gdiv (s : S128x128.Idx → EReal) (cnt : S128x1.Idx → EReal) (g : Fin 128) (f : Fin 128) : EReal :=
  Ideal.div (s (ix2 g f)) (max (cnt (ix2 g 0)) 1)
def gdivA (s : S128x128.Idx → EReal) (cnt : S128x1.Idx → EReal) : S128x128.Idx → EReal := fun i => gdiv s cnt (row i) (col i)

/-- A per-graph table read at node n's own graph. -/
def pick (bt : S50000x1.Idx → BitVec 32) (t : S128x128.Idx → EReal) (n : Fin 50000) (f : Fin 128) : EReal :=
  ∑ g : Fin 128, oh (bt (ix2 n 0)) g * t (ix2 g f)

/-- An entry minus the scaled mean of its node's graph. -/
def centred (o : S50000x128.Idx → EReal) (bt : S50000x1.Idx → BitVec 32) (mean : S128x128.Idx → EReal) (sc : S1x128.Idx → EReal)
    (n : Fin 50000) (f : Fin 128) : EReal :=
  o (ix2 n f) - sc (ix2 0 f) * pick bt mean n f

/-- Graph g's total of squared centred entries. -/
def gsq (o : S50000x128.Idx → EReal) (bt : S50000x1.Idx → BitVec 32) (mean : S128x128.Idx → EReal) (sc : S1x128.Idx → EReal)
    (g : Fin 128) (f : Fin 128) : EReal :=
  ∑ n : Fin 50000, oh (bt (ix2 n 0)) g * (centred o bt mean sc n f * centred o bt mean sc n f)
def gsqA (o : S50000x128.Idx → EReal) (bt : S50000x1.Idx → BitVec 32) (mean : S128x128.Idx → EReal) (sc : S1x128.Idx → EReal) :
    S128x128.Idx → EReal := fun i => gsq o bt mean sc (row i) (col i)

/-- The block's result at node n: the input plus the rectified, normalised, scaled and shifted centred entry. -/
def result (o : S50000x128.Idx → EReal) (y : S50000x128.Idx → EReal) (bt : S50000x1.Idx → BitVec 32)
    (mean var : S128x128.Idx → EReal) (w b sc : S1x128.Idx → EReal) (n : Fin 50000) (f : Fin 128) : EReal :=
  y (ix2 n f) + max (w (ix2 0 f) * centred o bt mean sc n f
      * Ideal.rsqrt (pick bt var n f + Ideal.ofBits .f32 0x3727C5AC#32) + b (ix2 0 f)) (Ideal.ofBits .f32 0x00000000#32)
def resultA (o : S50000x128.Idx → EReal) (y : S50000x128.Idx → EReal) (bt : S50000x1.Idx → BitVec 32)
    (mean var : S128x128.Idx → EReal) (w b sc : S1x128.Idx → EReal) : S50000x128.Idx → EReal :=
  fun i => result o y bt mean var w b sc (row i) (col i)

end Cert.KernelIdeal.Spec

end
-- ==== Proof.SpecRun.lean ====
/-
  The block as one function of its nine arguments: the node features after 0 to 3 rounds of message passing, then Spec.lean's arithmetic.
-/
import proofs.«413368_j28329604284661_1_alg».proof.Proof.Spec
import proofs.«413368_j28329604284661_1_alg».proof.Proof.Gen.ReferenceIdeal.Read

noncomputable section

namespace Cert.KernelIdeal.Spec

open Cert.KernelIdeal Idealize.ShloMosaic Idealize.ShloMosaic.ValueIdx

/-- The node features after 0, 1, 2 and 3 rounds of message passing. -/
def hop (y : S50000x128.Idx → EReal) (ei : S2x625000.Idx → BitVec 32) (ew : S625000.Idx → EReal) :
    Fin 4 → S50000x128.Idx → EReal
  | 0 => y
  | 1 => Cert.ReferenceIdeal.Read.val_main_v44 (F := Ideal) y ei ew
  | 2 => Cert.ReferenceIdeal.Read.val_main_v61 (F := Ideal) y ei ew
  | 3 => Cert.ReferenceIdeal.Read.val_main_v78 (F := Ideal) y ei ew

def hopA (y : S50000x128.Idx → EReal) (ei : S2x625000.Idx → BitVec 32) (ew : S625000.Idx → EReal) : S4x50000x128.Idx → EReal :=
  fun i => hop y ei ew ⟨(i 0).val, (i 0).isLt⟩ (ix2 ⟨(i 1).val, (i 1).isLt⟩ ⟨(i 2).val, (i 2).isLt⟩)

def rowOf (v : S128.Idx → EReal) : S1x128.Idx → EReal := fun i => v (ix1 (col i))

def colOf (bt : S50000.Idx → BitVec 32) : S50000x1.Idx → BitVec 32 := fun i => bt (ix1 (row i))

def outV (y : S50000x128.Idx → EReal) (ei : S2x625000.Idx → BitVec 32) (ew : S625000.Idx → EReal)
    (tw : S4x128x128.Idx → EReal) (tb : S128.Idx → EReal) : S50000x128.Idx → EReal :=
  combA (hopA y ei ew) tw (rowOf tb)

def meanV (o : S50000x128.Idx → EReal) (bt : S50000.Idx → BitVec 32) : S128x128.Idx → EReal :=
  gdivA (gsumA o (colOf bt)) (gcntA (colOf bt))

def varV (o : S50000x128.Idx → EReal) (bt : S50000.Idx → BitVec 32) (gs : S128.Idx → EReal) : S128x128.Idx → EReal :=
  gdivA (gsqA o (colOf bt) (meanV o bt) (rowOf gs)) (gcntA (colOf bt))

/-- The block's result as a function of its nine arguments. -/
def kernelVal (y : S50000x128.Idx → EReal) (ei : S2x625000.Idx → BitVec 32) (ew : S625000.Idx → EReal)
    (bt : S50000.Idx → BitVec 32) (tw : S4x128x128.Idx → EReal) (tb gw gb gs : S128.Idx → EReal) : S50000x128.Idx → EReal :=
  resultA (outV y ei ew tw tb) y (colOf bt) (meanV (outV y ei ew tw tb) bt) (varV (outV y ei ew tw tb) bt gs)
    (rowOf gw) (rowOf gb) (rowOf gs)

end Cert.KernelIdeal.Spec

end
-- ==== Proof.ValHost.lean ====
/-
  What the host operations between the kernel calls compute at the exact reading, read index by index.
-/
import proofs.«413368_j28329604284661_1_alg».proof.Proof.FrRun
import proofs.«413368_j28329604284661_1_alg».proof.Proof.SpecRun
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

section Layout
variable {α : Type}

theorem shapeCast_rowOf (v : S128.Idx → α) (h : S128.ShapeCasts S1x128) :
    shapeCast S1x128 v h = fun i => v (ix1 (Spec.col i)) := by
  funext i
  refine shapeCast_apply v h i (ix1 (Spec.col i)) ?_
  rw [Shape.rowMajor_val_one, Shape.rowMajor_val_two]
  have h0 : (i 0).val < 1 := (i 0).isLt
  show (i 1).val = (i 0).val * 128 + (i 1).val
  omega

theorem shapeCast_colOf (v : S50000.Idx → α) (h : S50000.ShapeCasts S50000x1) :
    shapeCast S50000x1 v h = fun i => v (ix1 (Spec.row i)) := by
  funext i
  refine shapeCast_apply v h i (ix1 (Spec.row i)) ?_
  rw [Shape.rowMajor_val_one, Shape.rowMajor_val_two]
  have h1 : (i 1).val < 1 := (i 1).isLt
  show (i 0).val = (i 0).val * 1 + (i 1).val
  omega

abbrev lead (y : S50000x128.Idx → α) : S1x50000x128.Idx → α :=
  broadcastInDim S1x50000x128 ![1, 2] bcast_S50000x128_S1x50000x128_1_2 y

abbrev stack4 (y : Fin 4 → S50000x128.Idx → α) : S4x50000x128.Idx → α :=
  concatenate S4x50000x128 0 [⟨S1x50000x128, lead (y 0)⟩, ⟨S1x50000x128, lead (y 1)⟩, ⟨S1x50000x128, lead (y 2)⟩, ⟨S1x50000x128, lead (y 3)⟩]
    concatenates_S1x50000x128_S1x50000x128_S1x50000x128_S1x50000x128_S4x50000x128_d0

theorem lead_apply (y : S50000x128.Idx → α) (n : Fin 50000) (f : Fin 128) : lead y (ix3 (0 : Fin 1) n f) = y (ix2 n f) :=
  broadcastInDim_apply _ bcast_S50000x128_S1x50000x128_1_2 y _ (ix2 n f) (fun a => match a with
    | ⟨0, _⟩ => by show n.val = if (50000 : Nat) = 1 then 0 else n.val; rw [if_neg (by decide)]
    | ⟨1, _⟩ => by show f.val = if (128 : Nat) = 1 then 0 else f.val; rw [if_neg (by decide)])

theorem stack4_apply (y : Fin 4 → S50000x128.Idx → α) (i : S4x50000x128.Idx) :
    stack4 y i = y ⟨(i 0).val, (i 0).isLt⟩ (ix2 ⟨(i 1).val, (i 1).isLt⟩ ⟨(i 2).val, (i 2).isLt⟩) := by
  have hi : ∀ b : Fin 3, b.cast (rfl : (3 : Nat) = 3) ≠ (0 : Fin 3) →
      ((ix3 (0 : Fin 1) (⟨(i 1).val, (i 1).isLt⟩ : Fin 50000) (⟨(i 2).val, (i 2).isLt⟩ : Fin 128) : S1x50000x128.Idx) b).val
        = (i (b.cast rfl)).val := by
    intro b hb
    match b with
    | ⟨0, _⟩ => exact absurd rfl hb
    | ⟨1, _⟩ => rfl
    | ⟨2, _⟩ => rfl
  generalize hk : (⟨(i 0).val, (i 0).isLt⟩ : Fin 4) = k
  have hk' : k.val = (i 0).val := by rw [← hk]
  refine (concatenate_apply_piece (t := S4x50000x128) (0 : Fin 3) _ _ i k.val (by exact k.isLt) S1x50000x128 (lead (y k)) ?_ rfl k.val ?_
    (ix3 (0 : Fin 1) ⟨(i 1).val, (i 1).isLt⟩ ⟨(i 2).val, (i 2).isLt⟩) hi (by show k.val + 0 = (i 0).val; omega)).trans (lead_apply _ _ _)
  all_goals (fin_cases k <;> rfl)

end Layout

theorem ofBits_f32_one : Ideal.ofBits .f32 0x3F800000#32 = 1 := by
  simp [Ideal.ofBits, Ideal.ieee, -EReal.coe_mul]; norm_num

theorem divf_clamped (s : S128x128.Idx → EReal) (cnt : S128x1.Idx → EReal) :
    Host.divf (F := Ideal) (s := S128x128) (φ := .f32) s (broadcastInDim S128x128 ![0, 1] bcast_S128x1_S128x128_0_1
      (maximumf (F := Ideal) (s := S128x1) (φ := .f32) cnt (broadcastInDim S128x1 ![] bcast_S_S128x1 (constant (F := Ideal) S_ .f32 0x3F800000#32))))
      = Spec.gdivA s cnt := by
  funext i
  show Ideal.div (s i) (broadcastInDim S128x128 ![0, 1] bcast_S128x1_S128x128_0_1
      (maximumf (F := Ideal) (s := S128x1) (φ := .f32) cnt (broadcastInDim S128x1 ![] bcast_S_S128x1 (constant (F := Ideal) S_ .f32 0x3F800000#32))) i)
    = Ideal.div (s (ix2 (Spec.row i) (Spec.col i))) (max (cnt (ix2 (Spec.row i) 0)) 1)
  rw [broadcastInDim_apply _ bcast_S128x1_S128x128_0_1 _ i (ix2 (Spec.row i) 0) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])]
  show Ideal.div (s i) (max (cnt (ix2 (Spec.row i) 0)) (Ideal.ofBits .f32 0x3F800000#32)) = _
  rw [ofBits_f32_one, ← Spec.eq_ix2_row_col i]

section Chain
variable {F : FTy → Type} [FloatOps F] (m : (ℓ : Loc nD τ sig) → Buf (Elt F) ℓ) (ρ : Dev nD → PrngReg) (c : Dev nD)
open Cert.ReferenceIdeal.Read (val_main_v1 val_main_v3 val_main_v8 val_main_v11 val_main_cst_2 val_main_v12 val_main_v28 val_main_v44
  val_main_v49 val_main_v51 val_main_v53 val_main_v61 val_main_v78)

theorem W1_facts : W1 m ρ c (Proc.devRef .tc main_v1) = val_main_v1 (F := F) (m ((c : Thread nD τ).loc main_arg1))
    ∧ W1 m ρ c (Proc.devRef .tc main_v3) = val_main_v3 (F := F) (m ((c : Thread nD τ).loc main_arg1))
    ∧ W1 m ρ c (Proc.devRef .tc main_v8) = val_main_v8 (F := F) (m ((c : Thread nD τ).loc main_arg1)) (m ((c : Thread nD τ).loc main_arg2))
    ∧ W1 m ρ c (Proc.devRef .tc main_v11) = val_main_v11 (F := F) (m ((c : Thread nD τ).loc main_arg1)) (m ((c : Thread nD τ).loc main_arg2))
    ∧ W1 m ρ c (Proc.devRef .tc main_cst_2) = val_main_cst_2 (F := F) := by
  refine ⟨?_, ?_, ?_, ?_, ?_⟩ <;> (show StableHlo.after main_part0_ops0 (W0 m ρ c) _ = _; after_results; rfl)

theorem W2_v1 : W2 m ρ c (Proc.devRef .tc main_v1) = val_main_v1 (F := F) (m ((c : Thread nD τ).loc main_arg1)) :=
  (W2_of m ρ c main_v1 (by decide)).trans (W1_facts m ρ c).1

theorem W2_v3 : W2 m ρ c (Proc.devRef .tc main_v3) = val_main_v3 (F := F) (m ((c : Thread nD τ).loc main_arg1)) :=
  (W2_of m ρ c main_v3 (by decide)).trans (W1_facts m ρ c).2.1

theorem W2_v12 : W2 m ρ c (Proc.devRef .tc main_v12) = val_main_v12 (F := F) (m ((c : Thread nD τ).loc main_arg1)) (m ((c : Thread nD τ).loc main_arg2)) := by
  obtain ⟨-, -, h8, h11, hc⟩ := W1_facts m ρ c
  show StableHlo.after main_part0_ops1 (W1 m ρ c) _ = _
  generalize W1 m ρ c = W at h8 h11 hc ⊢
  after_results
  rw [h8, h11, hc]
  rfl

theorem W2_arg (r : Ref sig .tc) (h0 : r ∉ main_part0_ops0_W) (h1 : r ∉ main_part0_ops1_W) : W2 m ρ c (Proc.devRef .tc r) = m ((c : Thread nD τ).loc r) :=
  (W2_of m ρ c r h1).trans (W1_of m ρ c r h0)

theorem W3_v1 : W3 m ρ c (Proc.devRef .tc main_v1) = val_main_v1 (F := F) (m ((c : Thread nD τ).loc main_arg1)) :=
  (W3_of m ρ c main_v1 (by decide)).trans (W2_v1 m ρ c)

theorem W3_v3 : W3 m ρ c (Proc.devRef .tc main_v3) = val_main_v3 (F := F) (m ((c : Thread nD τ).loc main_arg1)) :=
  (W3_of m ρ c main_v3 (by decide)).trans (W2_v3 m ρ c)

set_option maxHeartbeats 1000000 in
theorem W3_v28 : W3 m ρ c (Proc.devRef .tc main_v28) = val_main_v28 (F := F) (m ((c : Thread nD τ).loc main_arg1)) (m ((c : Thread nD τ).loc main_arg2)) := by
  have h1 := W2_v1 m ρ c; have h3 := W2_v3 m ρ c; have h12 := W2_v12 m ρ c; have ha2 := W2_arg m ρ c main_arg2 (by decide) (by decide)
  show StableHlo.after main_part0_ops2 (W2 m ρ c) _ = _
  generalize W2 m ρ c = W at h1 h3 h12 ha2 ⊢
  after_results_simp
  rw [h1, h3, h12, ha2]
  rfl

set_option maxHeartbeats 1000000 in
theorem W3_v42 : W3 m ρ c (Proc.devRef .tc main_v42) = val_main_v49 (F := F) (m ((c : Thread nD τ).loc main_arg1)) (m ((c : Thread nD τ).loc main_arg2)) := by
  have h1 := W2_v1 m ρ c; have h3 := W2_v3 m ρ c; have h12 := W2_v12 m ρ c; have ha2 := W2_arg m ρ c main_arg2 (by decide) (by decide)
  show StableHlo.after main_part0_ops2 (W2 m ρ c) _ = _
  generalize W2 m ρ c = W at h1 h3 h12 ha2 ⊢
  after_results_simp
  rw [h1, h3, h12, ha2]
  rfl

theorem W3_v44 : W3 m ρ c (Proc.devRef .tc main_v44) = val_main_v51 (F := F) (m ((c : Thread nD τ).loc main_arg1)) := by
  have h1 := W2_v1 m ρ c
  show StableHlo.after main_part0_ops2 (W2 m ρ c) _ = _
  generalize W2 m ρ c = W at h1 ⊢
  after_results
  rw [h1]
  rfl

theorem W3_v46 : W3 m ρ c (Proc.devRef .tc main_v46) = val_main_v53 (F := F) (m ((c : Thread nD τ).loc main_arg1)) := by
  have h1 := W2_v1 m ρ c
  show StableHlo.after main_part0_ops2 (W2 m ρ c) _ = _
  generalize W2 m ρ c = W at h1 ⊢
  after_results
  rw [h1]
  rfl

set_option maxHeartbeats 1000000 in
theorem W3_v41 : W3 m ρ c (Proc.devRef .tc main_v41) = val_main_v44 (F := F) (m ((c : Thread nD τ).loc main_arg0)) (m ((c : Thread nD τ).loc main_arg1)) (m ((c : Thread nD τ).loc main_arg2)) := by
  have h1 := W2_v1 m ρ c; have h3 := W2_v3 m ρ c; have h12 := W2_v12 m ρ c; have ha0 := W2_arg m ρ c main_arg0 (by decide) (by decide); have ha2 := W2_arg m ρ c main_arg2 (by decide) (by decide)
  show StableHlo.after main_part0_ops2 (W2 m ρ c) _ = _
  generalize W2 m ρ c = W at h1 h3 h12 ha0 ha2 ⊢
  after_results_simp
  rw [h1, h3, h12, ha0, ha2]
  rfl

theorem W3_arg (r : Ref sig .tc) (h0 : r ∉ main_part0_ops0_W) (h1 : r ∉ main_part0_ops1_W) (h2 : r ∉ main_part0_ops2_W) :
    W3 m ρ c (Proc.devRef .tc r) = m ((c : Thread nD τ).loc r) :=
  (W3_of m ρ c r h2).trans (W2_arg m ρ c r h0 h1)

set_option maxHeartbeats 1000000 in
theorem W4_v68 : W4 m ρ c (Proc.devRef .tc main_v68) = lead (m ((c : Thread nD τ).loc main_arg0)) := by
  have ha0 := W3_arg m ρ c main_arg0 (by decide) (by decide) (by decide)
  show StableHlo.after main_part1_ops0 (W3 m ρ c) _ = _
  generalize W3 m ρ c = W at ha0 ⊢
  after_results_simp
  rw [ha0]

set_option maxHeartbeats 1000000 in
theorem W4_v69 : W4 m ρ c (Proc.devRef .tc main_v69) = lead (val_main_v44 (F := F) (m ((c : Thread nD τ).loc main_arg0)) (m ((c : Thread nD τ).loc main_arg1)) (m ((c : Thread nD τ).loc main_arg2))) := by
  have h41 := W3_v41 m ρ c
  show StableHlo.after main_part1_ops0 (W3 m ρ c) _ = _
  generalize W3 m ρ c = W at h41 ⊢
  after_results_simp
  rw [h41]

set_option maxHeartbeats 1000000 in
theorem W4_v70 : W4 m ρ c (Proc.devRef .tc main_v70) = lead (val_main_v61 (F := F) (m ((c : Thread nD τ).loc main_arg0)) (m ((c : Thread nD τ).loc main_arg1)) (m ((c : Thread nD τ).loc main_arg2))) := by
  have h1 := W3_v1 m ρ c; have h3 := W3_v3 m ρ c; have h41 := W3_v41 m ρ c; have h42 := W3_v42 m ρ c; have h44 := W3_v44 m ρ c; have h46 := W3_v46 m ρ c
  show StableHlo.after main_part1_ops0 (W3 m ρ c) _ = _
  generalize W3 m ρ c = W at h1 h3 h41 h42 h44 h46 ⊢
  after_results_simp
  rw [h1, h3, h41, h42, h44, h46]
  rfl

set_option maxHeartbeats 1000000 in
theorem W4_v71 : W4 m ρ c (Proc.devRef .tc main_v71) = lead (val_main_v78 (F := F) (m ((c : Thread nD τ).loc main_arg0)) (m ((c : Thread nD τ).loc main_arg1)) (m ((c : Thread nD τ).loc main_arg2))) := by
  have h1 := W3_v1 m ρ c; have h3 := W3_v3 m ρ c; have h28 := W3_v28 m ρ c; have h41 := W3_v41 m ρ c; have h42 := W3_v42 m ρ c; have h44 := W3_v44 m ρ c; have h46 := W3_v46 m ρ c
  show StableHlo.after main_part1_ops0 (W3 m ρ c) _ = _
  generalize W3 m ρ c = W at h1 h3 h28 h41 h42 h44 h46 ⊢
  after_results_simp
  rw [h1, h3, h28, h41, h42, h44, h46]
  rfl

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

abbrev stackOps : List (HloOp τ sig (Elt F)) :=
  [ StableHlo.nary ![main_v68, main_v69, main_v70, main_v71] main_v72 (fun u => concatenate S4x50000x128 0 [⟨S1x50000x128, u 0⟩, ⟨S1x50000x128, u 1⟩, ⟨S1x50000x128, u 2⟩, ⟨S1x50000x128, u 3⟩] concatenates_S1x50000x128_S1x50000x128_S1x50000x128_S1x50000x128_S4x50000x128_d0),
    StableHlo.reshape main_arg5 main_v73 rfl shapeCasts_S128_S1x128 ]

theorem part1_ops0_split :
    (main_part1_ops0 : List (HloOp τ sig (Elt F))) = List.take 29 main_part1_ops0 ++ stackOps := rfl

theorem stackOps_v72 (V : Valuation τ sig (Elt F)) :
    (StableHlo.after stackOps V (Proc.devRef .tc main_v72) : (⟨S4x50000x128, .f32⟩ : BufTy).Contents (Elt F))
      = concatenate S4x50000x128 0
          [⟨S1x50000x128, V (Proc.devRef .tc main_v68)⟩, ⟨S1x50000x128, V (Proc.devRef .tc main_v69)⟩,
           ⟨S1x50000x128, V (Proc.devRef .tc main_v70)⟩, ⟨S1x50000x128, V (Proc.devRef .tc main_v71)⟩]
          concatenates_S1x50000x128_S1x50000x128_S1x50000x128_S1x50000x128_S4x50000x128_d0 := by
  after_results
  rfl

theorem stackOps_of (V : Valuation τ sig (Elt F)) (r : Ref sig .tc) (h72 : r ≠ main_v72) (h73 : r ≠ main_v73) :
    StableHlo.after stackOps V (Proc.devRef .tc r) = V (Proc.devRef .tc r) := by
  simp only [StableHlo.after_cons, StableHlo.after_nil]
  rw [StableHlo.reshape_result_ne _ _ _ _ _ _ _ h73, StableHlo.nary_result_ne _ _ _ _ _ _ h72]

theorem W4_stack : W4 m ρ c (Proc.devRef .tc main_v72)
    = stack4 ![(m ((c : Thread nD τ).loc main_arg0)), val_main_v44 (F := F) (m ((c : Thread nD τ).loc main_arg0)) (m ((c : Thread nD τ).loc main_arg1)) (m ((c : Thread nD τ).loc main_arg2)), val_main_v61 (F := F) (m ((c : Thread nD τ).loc main_arg0)) (m ((c : Thread nD τ).loc main_arg1)) (m ((c : Thread nD τ).loc main_arg2)), val_main_v78 (F := F) (m ((c : Thread nD τ).loc main_arg0)) (m ((c : Thread nD τ).loc main_arg1)) (m ((c : Thread nD τ).loc main_arg2))] := by
  have hs : W4 m ρ c = StableHlo.after stackOps (StableHlo.after (List.take 29 main_part1_ops0) (W3 m ρ c)) :=
    (congrArg (fun l => StableHlo.after l (W3 m ρ c)) part1_ops0_split).trans (after_append _ _ _)
  have back : ∀ r : Ref sig .tc, r ≠ main_v72 → r ≠ main_v73 →
      StableHlo.after (List.take 29 main_part1_ops0) (W3 m ρ c) (Proc.devRef .tc r) = W4 m ρ c (Proc.devRef .tc r) :=
    fun r h72 h73 => ((stackOps_of _ r h72 h73).symm).trans (congrFun hs.symm _)
  refine ((congrFun hs _).trans (stackOps_v72 _)).trans ?_
  rw [back main_v68 (by decide) (by decide), back main_v69 (by decide) (by decide), back main_v70 (by decide) (by decide),
    back main_v71 (by decide) (by decide), W4_v68, W4_v69, W4_v70, W4_v71]
  rfl

end Chain

variable (m : (ℓ : Loc nD τ sig) → Buf (Elt Ideal) ℓ) (ρ : Dev nD → PrngReg)

theorem W5_arg (c : Dev nD) (r : Ref sig .tc) (h0 : r ∉ main_part0_ops0_W) (h1 : r ∉ main_part0_ops1_W) (h2 : r ∉ main_part0_ops2_W)
    (h3 : r ∉ main_part1_ops0_W) (h4 : ∀ w, Pipeline.arrRef spec0 w ≠ r) :
    W5 (F := Ideal) m ρ c (Proc.devRef .tc r) = m ((c : Thread nD τ).loc r) :=
  (W5_of_ne m ρ c r h4).trans ((W4_of m ρ c r h3).trans (W3_arg m ρ c r h0 h1 h2))

theorem W7_arg (c : Dev nD) (r : Ref sig .tc) (h0 : r ∉ main_part0_ops0_W) (h1 : r ∉ main_part0_ops1_W) (h2 : r ∉ main_part0_ops2_W)
    (h3 : r ∉ main_part1_ops0_W) (h4 : ∀ w, Pipeline.arrRef spec0 w ≠ r) (h5 : r ∉ main_part1_ops1_W) (h6 : ∀ w, Pipeline.arrRef spec1 w ≠ r) :
    W7 (F := Ideal) m ρ c (Proc.devRef .tc r) = m ((c : Thread nD τ).loc r) :=
  (W7_of_ne m ρ c r h6).trans ((W6_of m ρ c r h5).trans (W5_arg m ρ c r h0 h1 h2 h3 h4))

theorem W9_arg (c : Dev nD) (r : Ref sig .tc) (h0 : r ∉ main_part0_ops0_W) (h1 : r ∉ main_part0_ops1_W) (h2 : r ∉ main_part0_ops2_W)
    (h3 : r ∉ main_part1_ops0_W) (h4 : ∀ w, Pipeline.arrRef spec0 w ≠ r) (h5 : r ∉ main_part1_ops1_W) (h6 : ∀ w, Pipeline.arrRef spec1 w ≠ r)
    (h7 : r ∉ main_part1_ops2_W) (h8 : ∀ w, Pipeline.arrRef spec2 w ≠ r) :
    W9 (F := Ideal) m ρ c (Proc.devRef .tc r) = m ((c : Thread nD τ).loc r) :=
  (W9_of_ne m ρ c r h8).trans ((W8_of m ρ c r h7).trans (W7_arg m ρ c r h0 h1 h2 h3 h4 h5 h6))

theorem W4_v73 (c : Dev nD) : W4 (F := Ideal) m ρ c (Proc.devRef .tc main_v73) = Spec.rowOf (m ((c : Thread nD τ).loc main_arg5)) := by
  have h := W3_arg m ρ c main_arg5 (by decide) (by decide) (by decide)
  show StableHlo.after main_part1_ops0 (W3 (F := Ideal) m ρ c) _ = _
  generalize W3 (F := Ideal) m ρ c = W at h ⊢
  after_results
  exact (congrArg (fun v => shapeCast S1x128 v shapeCasts_S128_S1x128) h).trans (shapeCast_rowOf _ _)

theorem W6_v75 (c : Dev nD) : W6 (F := Ideal) m ρ c (Proc.devRef .tc main_v75) = Spec.colOf (m ((c : Thread nD τ).loc main_arg3)) := by
  have h := W5_arg m ρ c main_arg3 (by decide) (by decide) (by decide) (by decide) (by decide)
  show StableHlo.after main_part1_ops1 (W5 (F := Ideal) m ρ c) _ = _
  generalize W5 (F := Ideal) m ρ c = W at h ⊢
  after_results
  exact (congrArg (fun v => shapeCast S50000x1 v shapeCasts_S50000_S50000x1) h).trans (shapeCast_colOf _ _)

theorem W8_v81 (c : Dev nD) : W8 (F := Ideal) m ρ c (Proc.devRef .tc main_v81) = Spec.rowOf (m ((c : Thread nD τ).loc main_arg8)) := by
  have h := W7_arg m ρ c main_arg8 (by decide) (by decide) (by decide) (by decide) (by decide) (by decide) (by decide)
  show StableHlo.after main_part1_ops2 (W7 (F := Ideal) m ρ c) _ = _
  generalize W7 (F := Ideal) m ρ c = W at h ⊢
  after_results
  exact (congrArg (fun v => shapeCast S1x128 v shapeCasts_S128_S1x128) h).trans (shapeCast_rowOf _ _)

theorem W10_v85 (c : Dev nD) : W10 (F := Ideal) m ρ c (Proc.devRef .tc main_v85) = Spec.rowOf (m ((c : Thread nD τ).loc main_arg6)) := by
  have h := W9_arg m ρ c main_arg6 (by decide) (by decide) (by decide) (by decide) (by decide) (by decide) (by decide) (by decide) (by decide)
  show StableHlo.after main_part1_ops3 (W9 (F := Ideal) m ρ c) _ = _
  generalize W9 (F := Ideal) m ρ c = W at h ⊢
  after_results
  exact (congrArg (fun v => shapeCast S1x128 v shapeCasts_S128_S1x128) h).trans (shapeCast_rowOf _ _)
theorem W10_v86 (c : Dev nD) : W10 (F := Ideal) m ρ c (Proc.devRef .tc main_v86) = Spec.rowOf (m ((c : Thread nD τ).loc main_arg7)) := by
  have h := W9_arg m ρ c main_arg7 (by decide) (by decide) (by decide) (by decide) (by decide) (by decide) (by decide) (by decide) (by decide)
  show StableHlo.after main_part1_ops3 (W9 (F := Ideal) m ρ c) _ = _
  generalize W9 (F := Ideal) m ρ c = W at h ⊢
  after_results
  exact (congrArg (fun v => shapeCast S1x128 v shapeCasts_S128_S1x128) h).trans (shapeCast_rowOf _ _)

theorem W8_v80 (c : Dev nD) : W8 (F := Ideal) m ρ c (Proc.devRef .tc main_v80)
    = Spec.gdivA (W7 (F := Ideal) m ρ c (Proc.devRef .tc main_v76_0)) (W7 (F := Ideal) m ρ c (Proc.devRef .tc main_v76_1)) := by
  show StableHlo.after main_part1_ops2 (W7 (F := Ideal) m ρ c) _ = _
  generalize W7 (F := Ideal) m ρ c = W
  after_results
  exact divf_clamped _ _

theorem W9_v78 (c : Dev nD) :
    (W9 (F := Ideal) m ρ c (Proc.devRef .tc main_v78) : (⟨S128x1, .f32⟩ : BufTy).Contents (Elt Ideal))
      = maximumf (W7 (F := Ideal) m ρ c (Proc.devRef .tc main_v76_1))
          (broadcastInDim S128x1 ![] bcast_S_S128x1 (constant (F := Ideal) S_ .f32 0x3F800000#32)) := by
  refine (W9_of_ne m ρ c main_v78 (by decide)).trans ?_
  show StableHlo.after main_part1_ops2 (W7 (F := Ideal) m ρ c) _ = _
  generalize W7 (F := Ideal) m ρ c = W
  after_results

theorem W10_v84 (c : Dev nD) : W10 (F := Ideal) m ρ c (Proc.devRef .tc main_v84)
    = Spec.gdivA (W9 (F := Ideal) m ρ c (Proc.devRef .tc main_v82)) (W7 (F := Ideal) m ρ c (Proc.devRef .tc main_v76_1)) := by
  have h := W9_v78 m ρ c
  show StableHlo.after main_part1_ops3 (W9 (F := Ideal) m ρ c) _ = _
  generalize W9 (F := Ideal) m ρ c = W at h ⊢
  after_results
  rw [h]
  exact divf_clamped _ _

theorem W4_v72 (c : Dev nD) : W4 (F := Ideal) m ρ c (Proc.devRef .tc main_v72) = Spec.hopA (m ((c : Thread nD τ).loc main_arg0)) (m ((c : Thread nD τ).loc main_arg1)) (m ((c : Thread nD τ).loc main_arg2)) := by
  funext i
  exact (congrFun (W4_stack (F := Ideal) m ρ c) i).trans
    (stack4_apply (Spec.hop (m ((c : Thread nD τ).loc main_arg0)) (m ((c : Thread nD τ).loc main_arg1)) (m ((c : Thread nD τ).loc main_arg2))) i)

end Cert.KernelIdeal.Val

end
-- ==== Proof.LibRowOps.lean ====
/-
  Lemmas over literal shapes that several modules share: a matrix product, a one-hot row and a sum over ten row tiles, each read at an entry.
-/
import Idealize.ShloMosaic.PureOps
import Idealize.ShloMosaic.PureOps.Ideal
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.Pipeline.Value

noncomputable section

namespace Cert.RowOps

open Idealize.ShloMosaic Idealize.ShloMosaic.ValueIdx

section Gather
variable {α : Type}

abbrev rowGather (N M n : Nat)
    (wf : GatherDims.WF ⟨2, ![N, M]⟩ ⟨2, ![n, 1]⟩ ⟨2, ![n, M]⟩ [1] [0] [] [0] [] 1 ![1, M]) :
    GatherDims ⟨2, ![N, M]⟩ ⟨2, ![n, 1]⟩ ⟨2, ![n, M]⟩ where
  offsetDims := [1]
  collapsedSliceDims := [0]
  operandBatchingDims := []
  startIndicesBatchingDims := []
  startIndexMap := [0]
  indexVectorDim := 1
  sliceSizes := ![1, M]
  wf := wf

theorem rowGather_apply {N M n w : Nat} (hN : 0 < N)
    (wf : GatherDims.WF ⟨2, ![N, M]⟩ ⟨2, ![n, 1]⟩ ⟨2, ![n, M]⟩ [1] [0] [] [0] [] 1 ![1, M])
    (T : (⟨2, ![N, M]⟩ : Shape).Idx → α) (idx : IVec ⟨2, ![n, 1]⟩ w) (e : Fin n) (k : Fin M) :
    Host.gather (rowGather N M n wf) T idx (ix2 e k)
      = T (ix2 ⟨min (idx (ix2 e 0)).toInt.toNat (N - 1), by omega⟩ k) := by
  unfold Host.gather
  congr 1
  funext a
  refine Fin.ext ?_
  match a with
  | ⟨0, _⟩ =>
    show (rowGather N M n wf).start (ix2 e k) idx 0 + (rowGather N M n wf).batchCoord (ix2 e k) 0
      + (rowGather N M n wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M n wf).startIndexMap from List.mem_singleton.mpr rfl)]
    have hsi : (rowGather N M n wf).siIdx (ix2 e k) ⟨List.idxOf (0 : Fin 2) (rowGather N M n wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N M n wf).start (ix2 e k) idx 1 + (rowGather N M n wf).batchCoord (ix2 e k) 1
      + (rowGather N M n wf).offCoord (ix2 e k) 1 = k.val
    have h1 : (rowGather N M n wf).start (ix2 e k) idx 1 = 0 := by
      unfold GatherDims.start
      exact dif_neg (fun h => Nat.one_ne_zero (congrArg Fin.val (List.mem_singleton.mp h)))
    have h2 : (rowGather N M n wf).offCoord (ix2 e k) 1 = k.val := by
      unfold GatherDims.offCoord
      rw [dif_pos ((GatherDims.mem_sKept _ _).mpr
        ⟨fun h => Nat.one_ne_zero (congrArg Fin.val (List.mem_singleton.mp h)), List.not_mem_nil⟩)]
      rfl
    rw [h1, GatherDims.batchCoord_eq_zero _ _ _ List.not_mem_nil, h2]
    omega

theorem gather_rows_apply {N M n w : Nat} (hN : 0 < N)
    (d : GatherDims ⟨2, ![N, M]⟩ ⟨2, ![n, 1]⟩ ⟨2, ![n, M]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, M])
    (T : (⟨2, ![N, M]⟩ : Shape).Idx → α) (idx : IVec ⟨2, ![n, 1]⟩ w) (e : Fin n) (k : Fin M) :
    Host.gather d T idx (ix2 e k) = T (ix2 ⟨min (idx (ix2 e 0)).toInt.toNat (N - 1), by omega⟩ k) := by
  obtain ⟨od, cd, ob, sb, sm, iv, ss, wf⟩ := d
  dsimp only at hod hcd hob hsb hsm hiv hss
  subst hod hcd hob hsb hsm hiv hss
  exact rowGather_apply hN wf T idx e k

end Gather

section Scatter

abbrev rowScatter (G M n : Nat)
    (wf : ScatterDims.WF ⟨2, ![G, M]⟩ ⟨2, ![n, 1]⟩ ⟨2, ![n, M]⟩ [1] [0] [0] 1) :
    ScatterDims ⟨2, ![G, M]⟩ ⟨2, ![n, 1]⟩ ⟨2, ![n, M]⟩ where
  updateWindowDims := [1]
  insertedWindowDims := [0]
  scatterDimsToOperandDims := [0]
  indexVectorDim := 1
  wf := wf

theorem scatter_mem_sKept {s si u : Shape} (d : ScatterDims s si u) (a : Fin s.rank) :
    a ∈ d.sKept ↔ a ∉ d.insertedWindowDims := by
  simp [ScatterDims.sKept, Shape.kept, List.mem_filter, List.mem_finRange]

variable {G M n w : Nat} (wf : ScatterDims.WF ⟨2, ![G, M]⟩ ⟨2, ![n, 1]⟩ ⟨2, ![n, M]⟩ [1] [0] [0] 1)
  (idx : IVec ⟨2, ![n, 1]⟩ w) (e : Fin n) (k : Fin M)

theorem rowScatter_start0 : (rowScatter G M n wf).start (ix2 e k) idx 0 = (idx (ix2 e 0)).toInt := by
  unfold ScatterDims.start
  rw [dif_pos (show (0 : Fin 2) ∈ (rowScatter G M n wf).scatterDimsToOperandDims from List.mem_singleton.mpr rfl)]
  have hsi : (rowScatter G M n wf).siIdx (ix2 e k) ⟨List.idxOf (0 : Fin 2) (rowScatter G M n wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowScatter_start1 : (rowScatter G M n wf).start (ix2 e k) idx 1 = 0 := by
  unfold ScatterDims.start
  exact dif_neg (fun h => Nat.one_ne_zero (congrArg Fin.val (List.mem_singleton.mp h)))

theorem rowScatter_window0 : (rowScatter G M n wf).window (ix2 e k) 0 = 0 := by
  unfold ScatterDims.window
  exact dif_neg (fun h => (scatter_mem_sKept _ _).mp h (List.mem_singleton.mpr rfl))

theorem rowScatter_window1 : (rowScatter G M n wf).window (ix2 e k) 1 = k.val := by
  unfold ScatterDims.window
  rw [dif_pos ((scatter_mem_sKept _ _).mpr (fun h => Nat.one_ne_zero (congrArg Fin.val (List.mem_singleton.mp h))))]
  rfl

theorem rowScatter_resultIdx?_iff (g : Fin G) (f : Fin M) :
    (rowScatter G M n wf).resultIdx? (ix2 e k) idx = some (ix2 g f)
      ↔ (idx (ix2 e 0)).toInt = (g.val : Int) ∧ k = f := by
  have h0 := rowScatter_start0 wf idx e k
  have h1 := rowScatter_start1 wf idx e k
  have w0 := rowScatter_window0 wf e k
  have w1 := rowScatter_window1 wf e k
  have hg := g.isLt
  have hk := k.isLt
  unfold ScatterDims.resultIdx?
  constructor
  · intro h
    split at h
    · next hall =>
      have heq := Option.some.inj h
      have v0 : ((rowScatter G M n wf).start (ix2 e k) idx 0 + ((rowScatter G M n wf).window (ix2 e k) 0 : Nat)).toNat = g.val :=
        congrArg Fin.val (congrFun heq 0)
      have v1 : ((rowScatter G M n wf).start (ix2 e k) idx 1 + ((rowScatter G M n wf).window (ix2 e k) 1 : Nat)).toNat = f.val :=
        congrArg Fin.val (congrFun heq 1)
      have a0 := (hall 0).1
      rw [h0, w0] at v0 a0
      rw [h1, w1] at v1
      exact ⟨by omega, Fin.ext (by omega)⟩
    · exact absurd h (by simp)
  · rintro ⟨hgi, rfl⟩
    have hall : ∀ a, 0 ≤ (rowScatter G M n wf).start (ix2 e k) idx a + ((rowScatter G M n wf).window (ix2 e k) a : Nat)
        ∧ (rowScatter G M n wf).start (ix2 e k) idx a + ((rowScatter G M n wf).window (ix2 e k) a : Nat)
          < ((⟨2, ![G, M]⟩ : Shape).size a : Nat) := by
      intro a
      match a with
      | ⟨0, _⟩ =>
        show 0 ≤ (rowScatter G M n wf).start (ix2 e k) idx 0 + ((rowScatter G M n wf).window (ix2 e k) 0 : Nat)
          ∧ (rowScatter G M n wf).start (ix2 e k) idx 0 + ((rowScatter G M n wf).window (ix2 e k) 0 : Nat) < (G : Int)
        rw [h0, w0]; omega
      | ⟨1, _⟩ =>
        show 0 ≤ (rowScatter G M n wf).start (ix2 e k) idx 1 + ((rowScatter G M n wf).window (ix2 e k) 1 : Nat)
          ∧ (rowScatter G M n wf).start (ix2 e k) idx 1 + ((rowScatter G M n wf).window (ix2 e k) 1 : Nat) < (M : Int)
        rw [h1, w1]; omega
    rw [dif_pos hall]
    refine congrArg some ?_
    funext a
    refine Fin.ext ?_
    match a with
    | ⟨0, _⟩ =>
      show ((rowScatter G M n wf).start (ix2 e k) idx 0 + ((rowScatter G M n wf).window (ix2 e k) 0 : Nat)).toNat = g.val
      rw [h0, w0]; omega
    | ⟨1, _⟩ =>
      show ((rowScatter G M n wf).start (ix2 e k) idx 1 + ((rowScatter G M n wf).window (ix2 e k) 1 : Nat)).toNat = k.val
      rw [h1, w1]; omega

theorem rowScatter_apply (x : (⟨2, ![G, M]⟩ : Shape).Idx → EReal) (upd : (⟨2, ![n, M]⟩ : Shape).Idx → EReal)
    (g : Fin G) (f : Fin M) :
    Ideal.hostScatterAdd (rowScatter G M n wf) x idx upd (ix2 g f)
      = x (ix2 g f) + ∑ e : Fin n, if (idx (ix2 e 0)).toInt = (g.val : Int) then upd (ix2 e f) else 0 := by
  unfold Ideal.hostScatterAdd
  congr 1
  rw [Finset.sum_filter, sum_idx2]
  refine Finset.sum_congr rfl (fun e _ => ?_)
  simp only [rowScatter_resultIdx?_iff wf idx e _ g f]
  by_cases hg : (idx (ix2 e 0)).toInt = (g.val : Int)
  · simp only [hg, true_and, Finset.sum_ite_eq', Finset.mem_univ, if_true]
  · simp only [hg, false_and, if_false, Finset.sum_const_zero]

end Scatter

theorem scatterAdd_rows_apply {G M n w : Nat}
    (d : ScatterDims ⟨2, ![G, M]⟩ ⟨2, ![n, 1]⟩ ⟨2, ![n, M]⟩)
    (huw : d.updateWindowDims = [1]) (hiw : d.insertedWindowDims = [0]) (hsd : d.scatterDimsToOperandDims = [0])
    (hiv : d.indexVectorDim = 1)
    (x : (⟨2, ![G, M]⟩ : Shape).Idx → EReal) (idx : IVec ⟨2, ![n, 1]⟩ w) (upd : (⟨2, ![n, M]⟩ : Shape).Idx → EReal)
    (g : Fin G) (f : Fin M) :
    Ideal.hostScatterAdd d x idx upd (ix2 g f)
      = x (ix2 g f) + ∑ e : Fin n, if (idx (ix2 e 0)).toInt = (g.val : Int) then upd (ix2 e f) else 0 := by
  obtain ⟨uw, iw, sd, iv, wf⟩ := d
  dsimp only at huw hiw hsd hiv
  subst huw hiw hsd hiv
  exact rowScatter_apply wf idx x upd g f

section ScatterElts

theorem sum_idx1 {A : Type*} [AddCommMonoid A] {n : Nat} (F : (⟨1, ![n]⟩ : Shape).Idx → A) :
    ∑ i, F i = ∑ a : Fin n, F (ix1 a) := by
  rw [← Equiv.sum_comp (idxEquiv1 (n := n)).symm F]
  rfl

abbrev eltScatter (G n : Nat)
    (wf : ScatterDims.WF ⟨1, ![G]⟩ ⟨2, ![n, 1]⟩ ⟨1, ![n]⟩ [] [0] [0] 1) :
    ScatterDims ⟨1, ![G]⟩ ⟨2, ![n, 1]⟩ ⟨1, ![n]⟩ where
  updateWindowDims := []
  insertedWindowDims := [0]
  scatterDimsToOperandDims := [0]
  indexVectorDim := 1
  wf := wf

variable {G n w : Nat} (wf : ScatterDims.WF ⟨1, ![G]⟩ ⟨2, ![n, 1]⟩ ⟨1, ![n]⟩ [] [0] [0] 1)
  (idx : IVec ⟨2, ![n, 1]⟩ w) (e : Fin n)

theorem eltScatter_start0 : (eltScatter G n wf).start (ix1 e) idx 0 = (idx (ix2 e 0)).toInt := by
  unfold ScatterDims.start
  rw [dif_pos (show (0 : Fin 1) ∈ (eltScatter G n wf).scatterDimsToOperandDims from List.mem_singleton.mpr rfl)]
  have hsi : (eltScatter G n wf).siIdx (ix1 e) ⟨List.idxOf (0 : Fin 1) (eltScatter G n wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem eltScatter_window0 : (eltScatter G n wf).window (ix1 e) 0 = 0 := by
  unfold ScatterDims.window
  exact dif_neg (fun h => (scatter_mem_sKept _ _).mp h (List.mem_singleton.mpr rfl))

theorem eltScatter_resultIdx?_iff (g : Fin G) :
    (eltScatter G n wf).resultIdx? (ix1 e) idx = some (ix1 g) ↔ (idx (ix2 e 0)).toInt = (g.val : Int) := by
  have h0 := eltScatter_start0 wf idx e
  have w0 := eltScatter_window0 wf e
  have hg := g.isLt
  unfold ScatterDims.resultIdx?
  constructor
  · intro h
    split at h
    · next hall =>
      have heq := Option.some.inj h
      have v0 : ((eltScatter G n wf).start (ix1 e) idx 0 + ((eltScatter G n wf).window (ix1 e) 0 : Nat)).toNat = g.val :=
        congrArg Fin.val (congrFun heq 0)
      have a0 := (hall 0).1
      rw [h0, w0] at v0 a0
      omega
    · exact absurd h (by simp)
  · intro hgi
    have hall : ∀ a, 0 ≤ (eltScatter G n wf).start (ix1 e) idx a + ((eltScatter G n wf).window (ix1 e) a : Nat)
        ∧ (eltScatter G n wf).start (ix1 e) idx a + ((eltScatter G n wf).window (ix1 e) a : Nat)
          < ((⟨1, ![G]⟩ : Shape).size a : Nat) := by
      intro a
      match a with
      | ⟨0, _⟩ =>
        show 0 ≤ (eltScatter G n wf).start (ix1 e) idx 0 + ((eltScatter G n wf).window (ix1 e) 0 : Nat)
          ∧ (eltScatter G n wf).start (ix1 e) idx 0 + ((eltScatter G n wf).window (ix1 e) 0 : Nat) < (G : Int)
        rw [h0, w0]; omega
    rw [dif_pos hall]
    refine congrArg some ?_
    funext a
    refine Fin.ext ?_
    match a with
    | ⟨0, _⟩ =>
      show ((eltScatter G n wf).start (ix1 e) idx 0 + ((eltScatter G n wf).window (ix1 e) 0 : Nat)).toNat = g.val
      rw [h0, w0]; omega

theorem eltScatter_apply (x : (⟨1, ![G]⟩ : Shape).Idx → EReal) (upd : (⟨1, ![n]⟩ : Shape).Idx → EReal) (g : Fin G) :
    Ideal.hostScatterAdd (eltScatter G n wf) x idx upd (ix1 g)
      = x (ix1 g) + ∑ e : Fin n, if (idx (ix2 e 0)).toInt = (g.val : Int) then upd (ix1 e) else 0 := by
  unfold Ideal.hostScatterAdd
  congr 1
  rw [Finset.sum_filter, sum_idx1]
  exact Finset.sum_congr rfl (fun e _ => if_congr (eltScatter_resultIdx?_iff wf idx e g) rfl rfl)

end ScatterElts

theorem scatterAdd_elts_apply {G n w : Nat}
    (d : ScatterDims ⟨1, ![G]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![G]⟩ : Shape).Idx → EReal) (idx : IVec ⟨2, ![n, 1]⟩ w) (upd : (⟨1, ![n]⟩ : Shape).Idx → EReal)
    (g : Fin G) :
    Ideal.hostScatterAdd d x idx upd (ix1 g)
      = x (ix1 g) + ∑ e : Fin n, if (idx (ix2 e 0)).toInt = (g.val : Int) then upd (ix1 e) else 0 := by
  obtain ⟨uw, iw, sd, iv, wf⟩ := d
  dsimp only at huw hiw hsd hiv
  subst huw hiw hsd hiv
  exact eltScatter_apply wf idx x upd g

section Products
variable {m k n : Nat}

theorem eq_ix2_of {a b : Nat} (i : (⟨2, ![a, b]⟩ : Shape).Idx) (p : Fin a) (q : Fin b)
    (h0 : (i 0).val = p.val) (h1 : (i 1).val = q.val) : i = ix2 p q :=
  funext fun x => Fin.ext (by
    match x with
    | ⟨0, _⟩ => exact h0
    | ⟨1, _⟩ => exact h1)

theorem mm_rows_apply (d : DotDims ⟨2, ![m, k]⟩ ⟨2, ![k, n]⟩ ⟨2, ![m, n]⟩) (hd : d = DotDims.plain m k n)
    (A : FVec Ideal ⟨2, ![m, k]⟩ .f32) (B : FVec Ideal ⟨2, ![k, n]⟩ .f32) (r : Fin m) (f : Fin n) :
    matmul d none A B (constant (F := Ideal) ⟨2, ![m, n]⟩ .f32 0x00000000#32) (ix2 r f) = ∑ j : Fin k, A (ix2 r j) * B (ix2 j f) := by
  subst hd
  simp only [matmul]
  rw [Ideal.matmul_constant_zero_apply, ← Equiv.sum_comp (contrEquiv1 (DotDims.plain m k n) k rfl rfl).symm]
  refine Finset.sum_congr rfl fun j _ => ?_
  have hj := contrEquiv1_symm_val (DotDims.plain m k n) k rfl rfl j
  rw [eq_ix2_of ((DotDims.plain m k n).lhsIdx (ix2 r f) ((contrEquiv1 (DotDims.plain m k n) k rfl rfl).symm j)) r j rfl hj,
    eq_ix2_of ((DotDims.plain m k n).rhsIdx (ix2 r f) ((contrEquiv1 (DotDims.plain m k n) k rfl rfl).symm j)) j f hj rfl]

theorem mm_cols_apply (d : DotDims ⟨2, ![k, m]⟩ ⟨2, ![k, n]⟩ ⟨2, ![m, n]⟩)
    (hlc : d.lhsContracting = [0]) (hrc : d.rhsContracting = [0]) (hln : d.lhsNonContracting = [1]) (hrn : d.rhsNonContracting = [1])
    (hlb : d.lhsBatch = []) (hrb : d.rhsBatch = [])
    (A : FVec Ideal ⟨2, ![k, m]⟩ .f32) (B : FVec Ideal ⟨2, ![k, n]⟩ .f32) (g : Fin m) (f : Fin n) :
    matmul d none A B (constant (F := Ideal) ⟨2, ![m, n]⟩ .f32 0x00000000#32) (ix2 g f) = ∑ r : Fin k, A (ix2 r g) * B (ix2 r f) := by
  obtain ⟨lc, rc, ln, rn, lb, rb, wf⟩ := d
  dsimp only at hlc hrc hln hrn hlb hrb
  subst hlc hrc hln hrn hlb hrb
  simp only [matmul]
  rw [Ideal.matmul_constant_zero_apply, ← Equiv.sum_comp (contrEquiv1 (DotDims.mk [0] [0] [1] [1] [] [] wf) k rfl rfl).symm]
  refine Finset.sum_congr rfl fun r _ => ?_
  have hr := contrEquiv1_symm_val (DotDims.mk [0] [0] [1] [1] [] [] wf) k rfl rfl r
  rw [eq_ix2_of ((DotDims.mk [0] [0] [1] [1] [] [] wf).lhsIdx (ix2 g f) ((contrEquiv1 (DotDims.mk [0] [0] [1] [1] [] [] wf) k rfl rfl).symm r)) r g hr rfl,
    eq_ix2_of ((DotDims.mk [0] [0] [1] [1] [] [] wf).rhsIdx (ix2 g f) ((contrEquiv1 (DotDims.mk [0] [0] [1] [1] [] [] wf) k rfl rfl).symm r)) r f hr rfl]

end Products

theorem indicator_word (b b' : BitVec 32) :
    (FloatOps.sitofp (F := Ideal) .f32 ((IntOp.cmpi .eq b b').setWidth 32) : EReal) = if b = b' then 1 else 0 := by
  have e1 : (BitVec.setWidth 32 (BitVec.ofBool true)).toInt = 1 := by decide
  have e0 : (BitVec.setWidth 32 (BitVec.ofBool false)).toInt = 0 := by decide
  show (((BitVec.setWidth 32 (BitVec.ofBool (b == b'))).toInt : ℝ) : EReal) = _
  by_cases h : b = b'
  · rw [if_pos h, beq_iff_eq.mpr h, e1]; norm_num
  · rw [if_neg h, beq_eq_false_iff_ne.mpr h, e0]; norm_num

theorem onehot_apply {R G : Nat} (xb : IVec ⟨2, ![R, 1]⟩ 32) (hb : (⟨2, ![R, 1]⟩ : Shape).Broadcasts ⟨2, ![R, G]⟩)
    (hi : (⟨2, ![R, G]⟩ : Shape).Iotas .tc 32 [1]) (h : 1 < 32) (r : Fin R) (g : Fin G) :
    (sitofp (F := Ideal) .f32 (extui 32 (cmpi .eq (broadcastTo ⟨2, ![R, G]⟩ xb hb) (iota .tc ⟨2, ![R, G]⟩ 32 [1] hi)) h)
      : FVec Ideal ⟨2, ![R, G]⟩ .f32) (ix2 r g) = if xb (ix2 r 0) = BitVec.ofNat 32 g.val then 1 else 0 := by
  show FloatOps.sitofp (F := Ideal) .f32 ((IntOp.cmpi .eq (broadcastTo ⟨2, ![R, G]⟩ xb hb (ix2 r g))
    (iota .tc ⟨2, ![R, G]⟩ 32 [1] hi (ix2 r g))).setWidth 32) = _
  rw [broadcastTo_apply xb hb (ix2 r g) (ix2 r 0) (fun a => by
      match a with
      | ⟨0, _⟩ => show r.val = if R = 1 then 0 else r.val; have := r.isLt; split <;> omega
      | ⟨1, _⟩ => rfl), iota_single_apply]
  exact indicator_word _ _

section Tiles
variable {N : Nat}

def past (a : Fin N → EReal) (j : ℕ) : EReal := if h : j < N then a ⟨j, h⟩ else 0

theorem past_of_lt (a : Fin N → EReal) (j : ℕ) (h : j < N) : past a j = a ⟨j, h⟩ := dif_pos h

theorem sum_tiles_range (B : ℕ) (A : ℕ → EReal) : ∀ T : ℕ,
    ∑ t ∈ Finset.range T, ∑ r : Fin B, A (B * t + r.val) = ∑ j ∈ Finset.range (B * T), A j
  | 0 => by simp
  | T + 1 => by
    rw [Finset.sum_range_succ, sum_tiles_range B A T, Nat.mul_succ, Finset.sum_range_add,
      Fin.sum_univ_eq_sum_range (fun r => A (B * T + r)) B]

theorem sum_tiles (B T : ℕ) (hN : B * T = N) (a : Fin N → EReal) :
    ∑ t ∈ Finset.range T, ∑ r : Fin B, past a (B * t + r.val) = ∑ j, a j := by
  subst hN
  rw [sum_tiles_range B (past a) T, ← Fin.sum_univ_eq_sum_range (past a) (B * T)]
  exact Finset.sum_congr rfl fun j _ => past_of_lt a j.val j.isLt

end Tiles

end Cert.RowOps

end
-- ==== Proof.ValR0.lean ====
/-
  Kernel call 0's output array at the exact reading: the four hop-times-weight products, summed, plus the bias.
-/
import proofs.«413368_j28329604284661_1_alg».proof.Proof.FrR0
import proofs.«413368_j28329604284661_1_alg».proof.Proof.Spec
import proofs.«413368_j28329604284661_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

theorem slab_apply {a b : Nat} (x : Vec Ideal ⟨3, ![4, a, b]⟩ .f32) (o : Nat) (ho : o < 4)
    (inb : ∀ i, (![o, 0, 0] : Fin 3 → Nat) i + (⟨3, ![1, a, b]⟩ : Shape).size i ≤ (⟨3, ![4, a, b]⟩ : Shape).size i) (r : Fin a) (k : Fin b) :
    View.ld x (Rect.unit (s := ⟨3, ![4, a, b]⟩) ![o, 0, 0] (⟨3, ![1, a, b]⟩ : Shape).size inb) (ix3 (0 : Fin 1) r k)
      = x (ix3 (⟨o, ho⟩ : Fin 4) r k) := by
  show x _ = x _
  refine congrArg x (funext fun i => Fin.ext ?_)
  match i with
  | ⟨0, _⟩ => show o + 1 * 0 = o; omega
  | ⟨1, _⟩ => show 0 + 1 * r.val = r.val; omega
  | ⟨2, _⟩ => show 0 + 1 * k.val = k.val; omega

theorem comb_block (xH : Vec Ideal S4x5000x128 .f32) (xW : Vec Ideal S4x128x128 .f32) (xb : Vec Ideal S1x128 .f32)
    (r : Fin 5000) (f : Fin 128) :
    k0_pay1 (F := Ideal) (k0_pay2 (View.ld xH rH0) (View.ld xW rW0) (View.ld xH rH1) (View.ld xW rW1)
      (View.ld xH rH2) (View.ld xW rW2) (View.ld xH rH3) (View.ld xW rW3)) (k0_pay3 xb) (ix2 r f)
      = (∑ k : Fin 128, xH (ix3 0 r k) * xW (ix3 0 k f)) + (∑ k : Fin 128, xH (ix3 1 r k) * xW (ix3 1 k f))
        + (∑ k : Fin 128, xH (ix3 2 r k) * xW (ix3 2 k f)) + (∑ k : Fin 128, xH (ix3 3 r k) * xW (ix3 3 k f)) + xb (ix2 0 f) := by
  unfold k0_pay1 k0_pay2 k0_pay3
  dsimp only
  simp only [addf_apply, broadcast_apply]
  simp only [RowOps.mm_rows_apply dot_S5000x128_S128x128_S5000x128_1_0_0_1_n_n rfl, shapeCast_1ab_ab_apply, shapeCast_self,
    broadcastTo_1b_ab_apply, slab_apply xH 0 (by decide), slab_apply xH 1 (by decide), slab_apply xH 2 (by decide), slab_apply xH 3 (by decide),
    slab_apply xW 0 (by decide), slab_apply xW 1 (by decide), slab_apply xW 2 (by decide), slab_apply xW 3 (by decide)]
  rw [show (FloatOps.ofBits FTy.f32 0#32 : Ideal .f32) = 0 from Ideal.ofBits_zero_f32, zero_add]
  rfl

variable (V : (c : Dev nD) → (b : Ref sig .tc) → Buf (Elt Ideal) ((c : Thread nD τ).loc b))

theorem idx_facts0 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem hop_block (c : Dev nD) (t : Fin cfg0.N) (h : Fin 4) (r : Fin 5000) (k : Fin 128) (n : Fin 50000)
    (hn : n.val = 5000 * t.val + r.val) :
    (iblk0 V c 0 t : Vec Ideal S4x5000x128 .f32) (ix3 h r k) = (V c main_v72 : S4x50000x128.Idx → EReal) (ix3 h n k) := by
  obtain ⟨e0, e1, e2, -⟩ := idx_facts0 t
  unfold iblk0
  rw [View.read_apply]
  show V c main_v72 _ = V c main_v72 _
  refine congrArg (V c main_v72) (funext fun a => Fin.ext ?_)
  match a with
  | ⟨0, _⟩ => show win0_0.index t (0 : Fin 3) * 4 + 1 * h.val = h.val; rw [e0]; omega
  | ⟨1, _⟩ => show win0_0.index t (1 : Fin 3) * 5000 + 1 * r.val = n.val; rw [e1, hn]; omega
  | ⟨2, _⟩ => show win0_0.index t (2 : Fin 3) * 128 + 1 * k.val = k.val; rw [e2]; omega

theorem wt_block (c : Dev nD) (t : Fin cfg0.N) (h : Fin 4) (k : Fin 128) (f : Fin 128) :
    (iblk0 V c 1 t : Vec Ideal S4x128x128 .f32) (ix3 h k f) = (V c main_arg4 : S4x128x128.Idx → EReal) (ix3 h k f) := by
  obtain ⟨-, -, -, e0, e1, e2, -⟩ := idx_facts0 t
  unfold iblk0
  rw [View.read_apply]
  show V c main_arg4 _ = V c main_arg4 _
  refine congrArg (V c main_arg4) (funext fun a => Fin.ext ?_)
  match a with
  | ⟨0, _⟩ => show win0_1.index t (0 : Fin 3) * 4 + 1 * h.val = h.val; rw [e0]; omega
  | ⟨1, _⟩ => show win0_1.index t (1 : Fin 3) * 128 + 1 * k.val = k.val; rw [e1]; omega
  | ⟨2, _⟩ => show win0_1.index t (2 : Fin 3) * 128 + 1 * f.val = f.val; rw [e2]; omega

theorem bias_block (c : Dev nD) (t : Fin cfg0.N) (f : Fin 128) :
    (iblk0 V c 2 t : Vec Ideal S1x128 .f32) (ix2 (0 : Fin 1) f) = (V c main_v73 : S1x128.Idx → EReal) (ix2 (0 : Fin 1) f) := by
  obtain ⟨-, -, -, -, -, -, e0, e1, -⟩ := idx_facts0 t
  unfold iblk0
  rw [View.read_apply]
  show V c main_v73 _ = V c main_v73 _
  refine congrArg (V c main_v73) (funext fun a => Fin.ext ?_)
  match a with
  | ⟨0, _⟩ => show win0_2.index t (0 : Fin 2) * 1 + 1 * 0 = 0; rw [e0]
  | ⟨1, _⟩ => show win0_2.index t (1 : Fin 2) * 128 + 1 * f.val = f.val; rw [e1]; omega

theorem tile_entry (c : Dev nD) (t : Fin cfg0.N) (j : S5000x128.Idx) (i : S50000x128.Idx)
    (h0 : (i 0).val = 5000 * t.val + (j 0).val) (h1 : (i 1).val = (j 1).val) :
    k0_pay1 (F := Ideal) (k0_pay2 (View.ld (iblk0 V c 0 t) rH0) (View.ld (iblk0 V c 1 t) rW0) (View.ld (iblk0 V c 0 t) rH1)
      (View.ld (iblk0 V c 1 t) rW1) (View.ld (iblk0 V c 0 t) rH2) (View.ld (iblk0 V c 1 t) rW2) (View.ld (iblk0 V c 0 t) rH3)
      (View.ld (iblk0 V c 1 t) rW3)) (k0_pay3 (iblk0 V c 2 t)) j
      = Spec.combA (V c main_v72) (V c main_arg4) (V c main_v73) i := by
  obtain ⟨r, f, rfl⟩ : ∃ (r : Fin 5000) (f : Fin 128), j = ix2 r f := ⟨j 0, j 1, eq_ix2 j⟩
  have hrow : (Spec.row i).val = 5000 * t.val + r.val := h0
  have hcol : Spec.col i = f := Fin.ext h1
  refine (comb_block (iblk0 V c 0 t) (iblk0 V c 1 t) (iblk0 V c 2 t) r f).trans ?_
  unfold Spec.combA Spec.comb
  rw [hcol]
  simp only [hop_block V c t _ r _ (Spec.row i) hrow, wt_block V c t, bias_block V c t]

theorem flushed_eq (c : Dev nD) (t : Fin cfg0.N) :
    (dat0 (F := Ideal) V c).flushed 3 t
      = ((cfg0.win 3).blk t).view.read (Elt Ideal) (Spec.combA (V c main_v72) (V c main_arg4) (V c main_v73)) := by
  show (cfg0.win 3).cut (grid0.coords t) ((dat0 (F := Ideal) V c).after 3 t) = _
  rw [after0_3, out0_3_eq]
  obtain ⟨-, -, -, -, -, -, -, -, e0, e1⟩ := idx_facts0 t
  funext j
  rw [View.read_apply]
  refine tile_entry V c t j _ ?_ ?_
  · show win0_3.index t (0 : Fin 2) * 5000 + 1 * (j 0).val = 5000 * t.val + (j 0).val; rw [e0]; omega
  · show win0_3.index t (1 : Fin 2) * 128 + 1 * (j 1).val = (j 1).val; rw [e1]; omega

theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, e0, e1⟩ := idx_facts0 t
  refine ⟨t, flush0_3 t, ?_⟩
  show i ∈ ((View.whole main_v74).slice (win0_3.rect t)).set
  rw [View.set_slice_whole, Rect.mem_set_unit]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

theorem arr0 (c : Dev nD) :
    (dat0 (F := Ideal) V c).arrAt 3 cfg0.N = Spec.combA (V c main_v72) (V c main_arg4) (V c main_v73) :=
  (dat0 (F := Ideal) V c).arrAt_eq_of_cover 3 (Spec.combA (V c main_v72) (V c main_arg4) (V c main_v73))
    (fun t _ => flushed_eq V c t) cover

end Cert.KernelIdeal.Val

end
-- ==== Proof.ValR1.lean ====
/-
  Kernel call 1's two output arrays at the exact reading: per-graph sums of the node rows, and per-graph node counts.
-/
import proofs.«413368_j28329604284661_1_alg».proof.Proof.FrR1
import proofs.«413368_j28329604284661_1_alg».proof.Proof.Spec
import proofs.«413368_j28329604284661_1_alg».proof.Proof.LibRowOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

namespace Stats

theorem onehot_apply (xb : Vec Ideal S5000x1 .i32) (r : Fin 5000) (g : Fin 128) :
    k1_pay3 (F := Ideal) xb (ix2 r g) = Spec.oh (xb (ix2 r 0)) g := by
  unfold k1_pay3
  rw [shapeCast_self]
  exact RowOps.onehot_apply xb _ _ _ r g

theorem sum_step_apply (xb : Vec Ideal S5000x1 .i32) (xo : Vec Ideal S5000x128 .f32) (prev : Vec Ideal S128x128 .f32)
    (g f : Fin 128) :
    k1_pay4 (F := Ideal) xb xo prev (ix2 g f)
      = prev (ix2 g f) + ∑ r : Fin 5000, Spec.oh (xb (ix2 r 0)) g * xo (ix2 r f) := by
  unfold k1_pay4
  show shapeCast S128x128 prev shapeCasts_S128x128_S128x128 (ix2 g f)
      + matmul dot_S5000x128_S5000x128_S128x128_0_0_1_1_n_n none (k1_pay3 (F := Ideal) xb)
          (shapeCast S5000x128 xo shapeCasts_S5000x128_S5000x128) (constant (F := Ideal) S128x128 .f32 0x00000000#32) (ix2 g f) = _
  rw [shapeCast_self, shapeCast_self, RowOps.mm_cols_apply dot_S5000x128_S5000x128_S128x128_0_0_1_1_n_n rfl rfl rfl rfl rfl rfl]
  exact congrArg (prev (ix2 g f) + ·) (Finset.sum_congr rfl fun r _ => by rw [onehot_apply])

theorem cnt_step_apply (xb : Vec Ideal S5000x1 .i32) (prev : Vec Ideal S128x1 .f32) (g : Fin 128) :
    k1_pay5 (F := Ideal) xb prev (ix2 g 0) = prev (ix2 g 0) + ∑ r : Fin 5000, Spec.oh (xb (ix2 r 0)) g := by
  unfold k1_pay5
  show shapeCast S128x1 prev shapeCasts_S128x1_S128x1 (ix2 g 0)
      + matmul dot_S5000x128_S5000x1_S128x1_0_0_1_1_n_n none (k1_pay3 (F := Ideal) xb)
          (broadcast S5000x1 (Scalar.ofBits (F := Ideal) .f32 0x3F800000#32)) (constant (F := Ideal) S128x1 .f32 0x00000000#32) (ix2 g 0) = _
  rw [shapeCast_self, RowOps.mm_cols_apply dot_S5000x128_S5000x1_S128x1_0_0_1_1_n_n rfl rfl rfl rfl rfl rfl]
  refine congrArg (prev (ix2 g 0) + ·) (Finset.sum_congr rfl fun k _ => ?_)
  rw [onehot_apply]
  show Spec.oh (xb (ix2 k 0)) g * Ideal.ofBits .f32 0x3F800000#32 = _
  rw [Ideal.ofBits_one_f32, mul_one]

theorem sum_reset_apply (i : S128x128.Idx) : k1_pay1 (F := Ideal) i = 0 := Ideal.ofBits_zero_f32
theorem cnt_reset_apply (i : S128x1.Idx) : k1_pay2 (F := Ideal) i = 0 := Ideal.ofBits_zero_f32

variable (V : (c : Dev nD) → (b : Ref sig .tc) → Buf (Elt Ideal) ((c : Thread nD τ).loc b))

abbrev feat (c : Dev nD) : Vec Ideal S50000x128 .f32 := V c main_v74
abbrev lab (c : Dev nD) : Vec Ideal S50000x1 .i32 := V c main_v75
abbrev featTile (c : Dev nD) (t : Fin cfg1.N) : Vec Ideal S5000x128 .f32 := iblk1 V c 0 t
abbrev labTile (c : Dev nD) (t : Fin cfg1.N) : Vec Ideal S5000x1 .i32 := iblk1 V c 1 t

theorem tile_index : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

theorem row_lt (t : Fin cfg1.N) (r : Fin 5000) : 5000 * t.val + r.val < 50000 := by
  have h : t.val < 10 := Nat.lt_of_lt_of_eq t.isLt N_1
  have := r.isLt
  omega

theorem featTile_apply (c : Dev nD) (t : Fin cfg1.N) (r : Fin 5000) (f : Fin 128) :
    featTile V c t (ix2 r f) = feat V c (ix2 ⟨5000 * t.val + r.val, row_lt t r⟩ f) := by
  obtain ⟨e0, e1, -, -⟩ := tile_index t
  exact congrArg (feat V c) (RowOps.eq_ix2_of _ _ _ (by show win1_0.index t (0 : Fin 2) * 5000 + 1 * r.val = 5000 * t.val + r.val; rw [e0]; omega) (by show win1_0.index t (1 : Fin 2) * 128 + 1 * f.val = f.val; rw [e1]; omega))

theorem labTile_apply (c : Dev nD) (t : Fin cfg1.N) (r : Fin 5000) :
    labTile V c t (ix2 r 0) = lab V c (ix2 ⟨5000 * t.val + r.val, row_lt t r⟩ 0) := by
  obtain ⟨-, -, e0, e1⟩ := tile_index t
  exact congrArg (lab V c) (RowOps.eq_ix2_of _ _ _ (by show win1_1.index t (0 : Fin 2) * 5000 + 1 * r.val = 5000 * t.val + r.val; rw [e0]; omega) (by show win1_1.index t (1 : Fin 2) * 1 + 1 * 0 = 0; rw [e1]))

abbrev sumTerm (c : Dev nD) (g f : Fin 128) : Fin 50000 → EReal := fun k => Spec.oh (lab V c (ix2 k 0)) g * feat V c (ix2 k f)
abbrev cntTerm (c : Dev nD) (g : Fin 128) : Fin 50000 → EReal := fun k => Spec.oh (lab V c (ix2 k 0)) g

theorem tile_sum (c : Dev nD) (g f : Fin 128) (t : Fin cfg1.N) :
    ∑ r : Fin 5000, Spec.oh (labTile V c t (ix2 r 0)) g * featTile V c t (ix2 r f)
      = ∑ r : Fin 5000, RowOps.past (sumTerm V c g f) (5000 * t.val + r.val) :=
  Finset.sum_congr rfl fun r _ => by
    rw [RowOps.past_of_lt _ _ (row_lt t r), labTile_apply, featTile_apply]
theorem tile_cnt (c : Dev nD) (g : Fin 128) (t : Fin cfg1.N) :
    ∑ r : Fin 5000, Spec.oh (labTile V c t (ix2 r 0)) g
      = ∑ r : Fin 5000, RowOps.past (cntTerm V c g) (5000 * t.val + r.val) :=
  Finset.sum_congr rfl fun r _ => by
    rw [RowOps.past_of_lt _ _ (row_lt t r), labTile_apply]

theorem sum_after (c : Dev nD) (g f : Fin 128) : ∀ (n : ℕ) (hn : n < cfg1.N),
    (outsAt1 (F := Ideal) V c n hn).1 (ix2 g f)
      = ∑ t ∈ Finset.range (n + 1), ∑ r : Fin 5000, RowOps.past (sumTerm V c g f) (5000 * t + r.val)
  | 0, hn => by
    show k1_pay4 (F := Ideal) (labTile V c ⟨0, hn⟩) (featTile V c ⟨0, hn⟩) (k1_pay1 (F := Ideal)) (ix2 g f) = _
    rw [sum_step_apply, sum_reset_apply, zero_add, Finset.sum_range_one]
    exact tile_sum V c g f ⟨0, hn⟩
  | n + 1, hn => by
    show k1_pay4 (F := Ideal) (labTile V c ⟨n + 1, hn⟩) (featTile V c ⟨n + 1, hn⟩)
      (outsAt1 (F := Ideal) V c n (Nat.lt_of_succ_lt hn)).1 (ix2 g f) = _
    rw [sum_step_apply, sum_after c g f n (Nat.lt_of_succ_lt hn), Finset.sum_range_succ _ (n + 1)]
    exact congrArg (_ + ·) (tile_sum V c g f ⟨n + 1, hn⟩)

theorem cnt_after (c : Dev nD) (g : Fin 128) : ∀ (n : ℕ) (hn : n < cfg1.N),
    (outsAt1 (F := Ideal) V c n hn).2 (ix2 g 0)
      = ∑ t ∈ Finset.range (n + 1), ∑ r : Fin 5000, RowOps.past (cntTerm V c g) (5000 * t + r.val)
  | 0, hn => by
    show k1_pay5 (F := Ideal) (labTile V c ⟨0, hn⟩) (k1_pay2 (F := Ideal)) (ix2 g 0) = _
    rw [cnt_step_apply, cnt_reset_apply, zero_add, Finset.sum_range_one]
    exact tile_cnt V c g ⟨0, hn⟩
  | n + 1, hn => by
    show k1_pay5 (F := Ideal) (labTile V c ⟨n + 1, hn⟩) (outsAt1 (F := Ideal) V c n (Nat.lt_of_succ_lt hn)).2 (ix2 g 0) = _
    rw [cnt_step_apply, cnt_after c g n (Nat.lt_of_succ_lt hn), Finset.sum_range_succ _ (n + 1)]
    exact congrArg (_ + ·) (tile_cnt V c g ⟨n + 1, hn⟩)

theorem sum_last (c : Dev nD) (t : Fin cfg1.N) (ht : t.val = 9) :
    (outsAt1 (F := Ideal) V c t.val t.isLt).1 = Spec.gsumA (V c main_v74) (V c main_v75) := by
  funext i
  obtain ⟨g, f, rfl⟩ : ∃ (g f : Fin 128), i = ix2 g f := ⟨i 0, i 1, eq_ix2 i⟩
  rw [sum_after V c g f t.val t.isLt, show t.val + 1 = 10 by omega, RowOps.sum_tiles 5000 10 rfl]
  rfl
theorem cnt_last (c : Dev nD) (t : Fin cfg1.N) (ht : t.val = 9) :
    (outsAt1 (F := Ideal) V c t.val t.isLt).2 = Spec.gcntA (V c main_v75) := by
  funext i
  obtain ⟨g, z, rfl⟩ : ∃ (g : Fin 128) (z : Fin 1), i = ix2 g z := ⟨i 0, i 1, eq_ix2 i⟩
  obtain rfl : z = 0 := Subsingleton.elim _ _
  rw [cnt_after V c g t.val t.isLt, show t.val + 1 = 10 by omega, RowOps.sum_tiles 5000 10 rfl]
  rfl

theorem flushed_sum (c : Dev nD) (t : Fin cfg1.N) (hf : (cfg1.win 2).flush t = true) :
    (dat1 (F := Ideal) V c).flushed 2 t
      = ((cfg1.win 2).blk t).view.read (Elt Ideal) (Spec.gsumA (V c main_v74) (V c main_v75)) := by
  have hN : cfg1.N = 10 := N_1
  have h9 : t.val = 9 := by have := (flush1_2 t).mp hf; have := t.isLt; omega
  obtain rfl : t = t1_9 := Fin.ext h9
  show (cfg1.win 2).cut (grid1.coords t1_9) ((dat1 (F := Ideal) V c).after 2 t1_9) = _
  rw [after1_2]
  rw [sum_last V c t1_9 rfl]
  have hz' : (fun a => win1_2.index t1_9 a * main_v76_0.ty.shape.size a) = fun _ => 0 := funext fun a => by fin_cases a <;> decide
  exact (Memref.read_access_unit_zero (Elt Ideal) main_v76_0 hz' (fun a => by rw [congrFun hz' a]; simp) (Spec.gsumA (V c main_v74) (V c main_v75))).symm

theorem flushed_cnt (c : Dev nD) (t : Fin cfg1.N) (hf : (cfg1.win 3).flush t = true) :
    (dat1 (F := Ideal) V c).flushed 3 t
      = ((cfg1.win 3).blk t).view.read (Elt Ideal) (Spec.gcntA (V c main_v75)) := by
  have hN : cfg1.N = 10 := N_1
  have h9 : t.val = 9 := by have := (flush1_3 t).mp hf; have := t.isLt; omega
  obtain rfl : t = t1_9 := Fin.ext h9
  show (cfg1.win 3).cut (grid1.coords t1_9) ((dat1 (F := Ideal) V c).after 3 t1_9) = _
  rw [after1_3]
  rw [cnt_last V c t1_9 rfl]
  have hz' : (fun a => win1_3.index t1_9 a * main_v76_1.ty.shape.size a) = fun _ => 0 := funext fun a => by fin_cases a <;> decide
  exact (Memref.read_access_unit_zero (Elt Ideal) main_v76_1 hz' (fun a => by rw [congrFun hz' a]; simp) (Spec.gcntA (V c main_v75))).symm

end Stats

variable (V : (c : Dev nD) → (b : Ref sig .tc) → Buf (Elt Ideal) ((c : Thread nD τ).loc b))

theorem arr1_sum (c : Dev nD) :
    (dat1 (F := Ideal) V c).arrAt 2 cfg1.N = Spec.gsumA (V c main_v74) (V c main_v75) :=
  (dat1 (F := Ideal) V c).arrAt_eq_of_cover 2 (Spec.gsumA (V c main_v74) (V c main_v75)) (Stats.flushed_sum V c) fun i =>
    ⟨t1_9, (flush1_2 t1_9).mpr rfl, by
      show i ∈ ((View.whole main_v76_0).slice (win1_2.rect t1_9)).set
      rw [View.set_slice_whole, Rect.mem_set_unit]
      intro a
      have h : ∀ a : Fin 2, win1_2.index t1_9 a * win1_2.size a = 0 ∧ win1_2.xsize (grid1.coords t1_9) a = S128x128.size a := by decide +kernel
      show win1_2.index t1_9 a * win1_2.size a ≤ (i a : Nat) ∧ (i a : Nat) < win1_2.index t1_9 a * win1_2.size a + win1_2.xsize (grid1.coords t1_9) a
      rw [(h a).1, (h a).2, Nat.zero_add]
      exact ⟨Nat.zero_le _, (i a).isLt⟩⟩

theorem arr1_cnt (c : Dev nD) :
    (dat1 (F := Ideal) V c).arrAt 3 cfg1.N = Spec.gcntA (V c main_v75) :=
  (dat1 (F := Ideal) V c).arrAt_eq_of_cover 3 (Spec.gcntA (V c main_v75)) (Stats.flushed_cnt V c) fun i =>
    ⟨t1_9, (flush1_3 t1_9).mpr rfl, by
      show i ∈ ((View.whole main_v76_1).slice (win1_3.rect t1_9)).set
      rw [View.set_slice_whole, Rect.mem_set_unit]
      intro a
      have h : ∀ a : Fin 2, win1_3.index t1_9 a * win1_3.size a = 0 ∧ win1_3.xsize (grid1.coords t1_9) a = S128x1.size a := by decide +kernel
      show win1_3.index t1_9 a * win1_3.size a ≤ (i a : Nat) ∧ (i a : Nat) < win1_3.index t1_9 a * win1_3.size a + win1_3.xsize (grid1.coords t1_9) a
      rw [(h a).1, (h a).2, Nat.zero_add]
      exact ⟨Nat.zero_le _, (i a).isLt⟩⟩

end Cert.KernelIdeal.Val

end
-- ==== Proof.ValR2.lean ====
/-
  Kernel call 2's output array at the exact reading: per-graph sums of squared centred entries.
-/
import proofs.«413368_j28329604284661_1_alg».proof.Proof.FrR2
import proofs.«413368_j28329604284661_1_alg».proof.Proof.Spec
import proofs.«413368_j28329604284661_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

namespace SqAcc

abbrev ind (xb : IVec S5000x1 32) : FVec Ideal S5000x128 .f32 :=
  sitofp .f32 (extui 32 (cmpi .eq (broadcastTo S5000x128 (shapeCast S5000x1 xb shapeCasts_S5000x1_S5000x1) broadcasts_S5000x1_S5000x128)
    (iota .tc S5000x128 32 [1] iota_S5000x128_d1_w32)) natLt_1_32)

theorem ind_apply (xb : IVec S5000x1 32) (r : Fin 5000) (g : Fin 128) : ind xb (ix2 r g) = Spec.oh (xb (ix2 r 0)) g := by
  unfold ind
  rw [shapeCast_self]
  exact RowOps.onehot_apply xb _ _ _ r g

def dev (xb : IVec S5000x1 32) (xm : FVec Ideal S128x128 .f32) (xo : FVec Ideal S5000x128 .f32) (xs : FVec Ideal S1x128 .f32)
    (r : Fin 5000) (f : Fin 128) : EReal :=
  xo (ix2 r f) - xs (ix2 0 f) * ∑ g' : Fin 128, Spec.oh (xb (ix2 r 0)) g' * xm (ix2 g' f)

abbrev ctile (xb : IVec S5000x1 32) (xm : FVec Ideal S128x128 .f32) (xo : FVec Ideal S5000x128 .f32) (xs : FVec Ideal S1x128 .f32) :
    FVec Ideal S5000x128 .f32 :=
  subf (shapeCast S5000x128 xo shapeCasts_S5000x128_S5000x128)
    (mulf (broadcastTo S5000x128 (shapeCast S1x128 xs shapeCasts_S1x128_S1x128) broadcasts_S1x128_S5000x128)
      (matmul dot_S5000x128_S128x128_S5000x128_1_0_0_1_n_n none (ind xb) (shapeCast S128x128 xm shapeCasts_S128x128_S128x128)
        (constant (F := Ideal) S5000x128 .f32 0x00000000#32)))

theorem ctile_apply (xb : IVec S5000x1 32) (xm : FVec Ideal S128x128 .f32) (xo : FVec Ideal S5000x128 .f32) (xs : FVec Ideal S1x128 .f32)
    (r : Fin 5000) (f : Fin 128) : ctile xb xm xo xs (ix2 r f) = dev xb xm xo xs r f := by
  show shapeCast S5000x128 xo shapeCasts_S5000x128_S5000x128 (ix2 r f)
      - broadcastTo S5000x128 (shapeCast S1x128 xs shapeCasts_S1x128_S1x128) broadcasts_S1x128_S5000x128 (ix2 r f)
        * matmul dot_S5000x128_S128x128_S5000x128_1_0_0_1_n_n none (ind xb) (shapeCast S128x128 xm shapeCasts_S128x128_S128x128)
            (constant (F := Ideal) S5000x128 .f32 0x00000000#32) (ix2 r f) = _
  rw [shapeCast_self, shapeCast_self, shapeCast_self, broadcastTo_1b_ab_apply, RowOps.mm_rows_apply dot_S5000x128_S128x128_S5000x128_1_0_0_1_n_n rfl]
  unfold dev
  refine congrArg (fun s => xo (ix2 r f) - xs (ix2 0 f) * s) (Finset.sum_congr rfl fun k _ => ?_)
  rw [ind_apply]

theorem pay_eq (xb : IVec S5000x1 32) (xm : FVec Ideal S128x128 .f32) (xo : FVec Ideal S5000x128 .f32) (xs : FVec Ideal S1x128 .f32)
    (prev : FVec Ideal S128x128 .f32) :
    k2_pay2 (F := Ideal) xb xm xo xs prev
      = addf (shapeCast S128x128 prev shapeCasts_S128x128_S128x128)
          (matmul dot_S5000x128_S5000x128_S128x128_0_0_1_1_n_n none (ind xb) (mulf (ctile xb xm xo xs) (ctile xb xm xo xs))
            (constant (F := Ideal) S128x128 .f32 0x00000000#32)) := by
  unfold k2_pay2; rfl

theorem pay_apply (xb : IVec S5000x1 32) (xm : FVec Ideal S128x128 .f32) (xo : FVec Ideal S5000x128 .f32) (xs : FVec Ideal S1x128 .f32)
    (prev : FVec Ideal S128x128 .f32) (g f : Fin 128) :
    k2_pay2 (F := Ideal) xb xm xo xs prev (ix2 g f)
      = prev (ix2 g f) + ∑ r : Fin 5000, Spec.oh (xb (ix2 r 0)) g * (dev xb xm xo xs r f * dev xb xm xo xs r f) := by
  rw [pay_eq, addf_apply, shapeCast_self, RowOps.mm_cols_apply dot_S5000x128_S5000x128_S128x128_0_0_1_1_n_n rfl rfl rfl rfl rfl rfl]
  refine congrArg (fun s => prev (ix2 g f) + s) (Finset.sum_congr rfl fun r _ => ?_)
  rw [ind_apply, mulf_apply, ctile_apply]

theorem pay_zero (i : S128x128.Idx) : k2_pay1 (F := Ideal) i = 0 := Ideal.ofBits_zero_f32

end SqAcc

variable (V : (c : Dev nD) → (b : Ref sig .tc) → Buf (Elt Ideal) ((c : Thread nD τ).loc b))

namespace SqAcc

abbrev oarr (c : Dev nD) : FVec Ideal S50000x128 .f32 := V c main_v74
abbrev larr (c : Dev nD) : IVec S50000x1 32 := V c main_v75
abbrev marr (c : Dev nD) : FVec Ideal S128x128 .f32 := V c main_v80
abbrev sarr (c : Dev nD) : FVec Ideal S1x128 .f32 := V c main_v81
abbrev oblk (c : Dev nD) (t : Fin cfg2.N) : FVec Ideal S5000x128 .f32 := iblk2 V c 0 t
abbrev lblk (c : Dev nD) (t : Fin cfg2.N) : IVec S5000x1 32 := iblk2 V c 1 t
abbrev mblk (c : Dev nD) (t : Fin cfg2.N) : FVec Ideal S128x128 .f32 := iblk2 V c 2 t
abbrev sblk (c : Dev nD) (t : Fin cfg2.N) : FVec Ideal S1x128 .f32 := iblk2 V c 3 t

theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem oblk_apply (c : Dev nD) (t : Fin cfg2.N) (r : Fin 5000) (f : Fin 128) (h : 5000 * t.val + r.val < 50000) :
    oblk V c t (ix2 r f) = oarr V c (ix2 ⟨5000 * t.val + r.val, h⟩ f) := by
  obtain ⟨e0, e1, -⟩ := idx_facts t
  exact congrArg (oarr V c) (RowOps.eq_ix2_of _ _ _ (by show win2_0.index t (0 : Fin 2) * 5000 + 1 * r.val = 5000 * t.val + r.val; rw [e0]; omega) (by show win2_0.index t (1 : Fin 2) * 128 + 1 * f.val = f.val; rw [e1]; omega))

theorem lblk_apply (c : Dev nD) (t : Fin cfg2.N) (r : Fin 5000) (h : 5000 * t.val + r.val < 50000) :
    lblk V c t (ix2 r 0) = larr V c (ix2 ⟨5000 * t.val + r.val, h⟩ 0) := by
  obtain ⟨-, -, e0, e1, -⟩ := idx_facts t
  exact congrArg (larr V c) (RowOps.eq_ix2_of _ _ _ (by show win2_1.index t (0 : Fin 2) * 5000 + 1 * r.val = 5000 * t.val + r.val; rw [e0]; omega) (by show win2_1.index t (1 : Fin 2) * 1 + 1 * 0 = 0; rw [e1]))

theorem mblk_apply (c : Dev nD) (t : Fin cfg2.N) (g f : Fin 128) : mblk V c t (ix2 g f) = marr V c (ix2 g f) := by
  obtain ⟨-, -, -, -, e0, e1, -⟩ := idx_facts t
  exact congrArg (marr V c) (RowOps.eq_ix2_of _ _ _ (by show win2_2.index t (0 : Fin 2) * 128 + 1 * g.val = g.val; rw [e0]; omega) (by show win2_2.index t (1 : Fin 2) * 128 + 1 * f.val = f.val; rw [e1]; omega))

theorem sblk_apply (c : Dev nD) (t : Fin cfg2.N) (f : Fin 128) : sblk V c t (ix2 0 f) = sarr V c (ix2 0 f) := by
  obtain ⟨-, -, -, -, -, -, e0, e1, -⟩ := idx_facts t
  exact congrArg (sarr V c) (RowOps.eq_ix2_of _ _ _ (by show win2_3.index t (0 : Fin 2) * 1 + 1 * 0 = 0; rw [e0]) (by show win2_3.index t (1 : Fin 2) * 128 + 1 * f.val = f.val; rw [e1]; omega))

def nodeTerm (c : Dev nD) (g f : Fin 128) (n : Fin 50000) : EReal :=
  Spec.oh (larr V c (ix2 n 0)) g
    * (Spec.centred (oarr V c) (larr V c) (marr V c) (sarr V c) n f * Spec.centred (oarr V c) (larr V c) (marr V c) (sarr V c) n f)

theorem dev_eq (c : Dev nD) (t : Fin cfg2.N) (r : Fin 5000) (f : Fin 128) (h : 5000 * t.val + r.val < 50000) :
    dev (lblk V c t) (mblk V c t) (oblk V c t) (sblk V c t) r f
      = Spec.centred (oarr V c) (larr V c) (marr V c) (sarr V c) ⟨5000 * t.val + r.val, h⟩ f := by
  unfold dev Spec.centred Spec.pick
  rw [oblk_apply V c t r f h, sblk_apply V c t f, lblk_apply V c t r h]
  refine congrArg (fun s => oarr V c (ix2 ⟨5000 * t.val + r.val, h⟩ f) - sarr V c (ix2 0 f) * s) (Finset.sum_congr rfl fun k _ => ?_)
  rw [mblk_apply V c t k f]

theorem tile_eq (c : Dev nD) (g f : Fin 128) (t : Fin cfg2.N) :
    ∑ r : Fin 5000, Spec.oh (lblk V c t (ix2 r 0)) g
        * (dev (lblk V c t) (mblk V c t) (oblk V c t) (sblk V c t) r f * dev (lblk V c t) (mblk V c t) (oblk V c t) (sblk V c t) r f)
      = ∑ r : Fin 5000, RowOps.past (nodeTerm V c g f) (5000 * t.val + r.val) := by
  have hN : cfg2.N = 10 := N_2
  refine Finset.sum_congr rfl fun r _ => ?_
  have hr : 5000 * t.val + r.val < 50000 := by have := r.isLt; have := t.isLt; omega
  rw [RowOps.past_of_lt _ _ hr]
  unfold nodeTerm
  rw [lblk_apply V c t r hr, dev_eq V c t r f hr]

theorem outs_apply (c : Dev nD) (g f : Fin 128) : ∀ (n : ℕ) (hn : n < cfg2.N),
    (outsAt2 V c n hn : FVec Ideal S128x128 .f32) (ix2 g f)
      = ∑ t ∈ Finset.range (n + 1), ∑ r : Fin 5000, RowOps.past (nodeTerm V c g f) (5000 * t + r.val)
  | 0, hn => by
    show k2_pay2 (F := Ideal) (lblk V c ⟨0, hn⟩) (mblk V c ⟨0, hn⟩) (oblk V c ⟨0, hn⟩) (sblk V c ⟨0, hn⟩) (k2_pay1 (F := Ideal)) (ix2 g f) = _
    rw [pay_apply (lblk V c ⟨0, hn⟩) (mblk V c ⟨0, hn⟩) (oblk V c ⟨0, hn⟩) (sblk V c ⟨0, hn⟩) (k2_pay1 (F := Ideal)) g f,
      pay_zero, zero_add, Finset.sum_range_one]
    exact tile_eq V c g f ⟨0, hn⟩
  | n + 1, hn => by
    show k2_pay2 (F := Ideal) (lblk V c ⟨n + 1, hn⟩) (mblk V c ⟨n + 1, hn⟩) (oblk V c ⟨n + 1, hn⟩) (sblk V c ⟨n + 1, hn⟩)
      (outsAt2 V c n (Nat.lt_of_succ_lt hn)) (ix2 g f) = _
    rw [pay_apply (lblk V c ⟨n + 1, hn⟩) (mblk V c ⟨n + 1, hn⟩) (oblk V c ⟨n + 1, hn⟩) (sblk V c ⟨n + 1, hn⟩)
        (outsAt2 V c n (Nat.lt_of_succ_lt hn)) g f,
      outs_apply c g f n (Nat.lt_of_succ_lt hn), Finset.sum_range_succ _ (n + 1)]
    exact congrArg (_ + ·) (tile_eq V c g f ⟨n + 1, hn⟩)

theorem flushed_eq (c : Dev nD) (t : Fin cfg2.N) (hf : (cfg2.win 4).flush t = true) :
    (dat2 V c).flushed 4 t
      = ((cfg2.win 4).blk t).view.read (Elt Ideal) (Spec.gsqA (V c main_v74) (V c main_v75) (V c main_v80) (V c main_v81)) := by
  have hN : cfg2.N = 10 := N_2
  have h9 : t.val = 9 := by have := (flush2_4 t).mp hf; have := t.isLt; omega
  obtain rfl : t = t2_9 := Fin.ext h9
  show (cfg2.win 4).cut (grid2.coords t2_9) ((dat2 V c).after 4 t2_9) = _
  rw [after2_4]
  have hz' : (fun a => win2_4.index t2_9 a * main_v82.ty.shape.size a) = fun _ => 0 := funext fun a => by fin_cases a <;> decide
  refine Eq.trans ?_ (Memref.read_access_unit_zero (Elt Ideal) main_v82 hz' (fun a => by rw [congrFun hz' a]; simp)
    (Spec.gsqA (V c main_v74) (V c main_v75) (V c main_v80) (V c main_v81))).symm
  funext j
  obtain ⟨g, f, rfl⟩ : ∃ (g f : Fin 128), j = ix2 g f := ⟨j 0, j 1, eq_ix2 j⟩
  show (outsAt2 V c t2_9.val t2_9.isLt : FVec Ideal S128x128 .f32) (ix2 g f) = Spec.gsq (oarr V c) (larr V c) (marr V c) (sarr V c) g f
  rw [outs_apply V c g f t2_9.val t2_9.isLt]
  exact RowOps.sum_tiles 5000 10 rfl (nodeTerm V c g f)

theorem cover (i : S128x128.Idx) : ∃ t : Fin cfg2.N, (cfg2.win 4).flush t = true ∧ i ∈ ((cfg2.win 4).blk t).view.set := by
  refine ⟨t2_9, (flush2_4 t2_9).mpr rfl, ?_⟩
  show i ∈ ((View.whole main_v82).slice (win2_4.rect t2_9)).set
  rw [View.set_slice_whole, Rect.mem_set_unit]
  intro a
  have h : ∀ a : Fin 2, win2_4.index t2_9 a * win2_4.size a = 0 ∧ win2_4.xsize (grid2.coords t2_9) a = S128x128.size a := by decide +kernel
  show win2_4.index t2_9 a * win2_4.size a ≤ (i a : Nat) ∧ (i a : Nat) < win2_4.index t2_9 a * win2_4.size a + win2_4.xsize (grid2.coords t2_9) a
  rw [(h a).1, (h a).2, Nat.zero_add]
  exact ⟨Nat.zero_le _, (i a).isLt⟩

end SqAcc

theorem arr2 (c : Dev nD) :
    (dat2 (F := Ideal) V c).arrAt 4 cfg2.N = Spec.gsqA (V c main_v74) (V c main_v75) (V c main_v80) (V c main_v81) :=
  (dat2 (F := Ideal) V c).arrAt_eq_of_cover 4 (Spec.gsqA (V c main_v74) (V c main_v75) (V c main_v80) (V c main_v81))
    (SqAcc.flushed_eq V c) SqAcc.cover

end Cert.KernelIdeal.Val

end
-- ==== Proof.ValR3.lean ====
/-
  Kernel call 3's output array at the exact reading: the input plus the rectified, normalised, scaled and shifted centred entry.
-/
import proofs.«413368_j28329604284661_1_alg».proof.Proof.FrR3
import proofs.«413368_j28329604284661_1_alg».proof.Proof.Spec
import proofs.«413368_j28329604284661_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace R3

theorem result_block (xb : Vec Ideal S5000x1 .i32) (xm xv : Vec Ideal S128x128 .f32) (xo : Vec Ideal S5000x128 .f32)
    (xs xw xbias : Vec Ideal S1x128 .f32) (xy : Vec Ideal S5000x128 .f32) (r : Fin 5000) (f : Fin 128) :
    k3_pay1 xb xm xv xo xs xw xbias xy (ix2 r f)
      = xy (ix2 r f) + max (xw (ix2 0 f) * (xo (ix2 r f) - xs (ix2 0 f) * ∑ g : Fin 128, Spec.oh (xb (ix2 r 0)) g * xm (ix2 g f))
          * Ideal.rsqrt ((∑ g : Fin 128, Spec.oh (xb (ix2 r 0)) g * xv (ix2 g f)) + Ideal.ofBits .f32 0x3727C5AC#32)
          + xbias (ix2 0 f)) (Ideal.ofBits .f32 0x00000000#32) := by
  unfold k3_pay1
  simp only [shapeCast_self]
  generalize hOH : (sitofp (F := Ideal) .f32 (extui 32 (cmpi .eq (broadcastTo S5000x128 xb broadcasts_S5000x1_S5000x128)
      (iota .tc S5000x128 32 [1] iota_S5000x128_d1_w32)) natLt_1_32) : FVec Ideal S5000x128 .f32) = OH
  have hoh : ∀ g : Fin 128, OH (ix2 r g) = Spec.oh (xb (ix2 r 0)) g := fun g => by rw [← hOH]; exact RowOps.onehot_apply xb _ _ _ r g
  have hm := RowOps.mm_rows_apply dot_S5000x128_S128x128_S5000x128_1_0_0_1_n_n rfl OH xm r f
  have hv := RowOps.mm_rows_apply dot_S5000x128_S128x128_S5000x128_1_0_0_1_n_n rfl OH xv r f
  have hw := broadcastTo_1b_ab_apply xw broadcasts_S1x128_S5000x128 r f
  have hs := broadcastTo_1b_ab_apply xs broadcasts_S1x128_S5000x128 r f
  have hbias := broadcastTo_1b_ab_apply xbias broadcasts_S1x128_S5000x128 r f
  simp only [hoh] at hm hv
  show xy (ix2 r f) + max (broadcastTo S5000x128 xw broadcasts_S1x128_S5000x128 (ix2 r f)
        * (xo (ix2 r f) - broadcastTo S5000x128 xs broadcasts_S1x128_S5000x128 (ix2 r f)
            * matmul dot_S5000x128_S128x128_S5000x128_1_0_0_1_n_n none OH xm (constant (F := Ideal) S5000x128 .f32 0x00000000#32) (ix2 r f))
        * Ideal.rsqrt (matmul dot_S5000x128_S128x128_S5000x128_1_0_0_1_n_n none OH xv (constant (F := Ideal) S5000x128 .f32 0x00000000#32) (ix2 r f)
            + Ideal.ofBits .f32 0x3727C5AC#32)
        + broadcastTo S5000x128 xbias broadcasts_S1x128_S5000x128 (ix2 r f)) (Ideal.ofBits .f32 0x00000000#32) = _
  rw [hm, hv, hw, hs, hbias]

theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

def node (t : Fin cfg3.N) (r : Fin 5000) : Fin 50000 :=
  ⟨5000 * t.val + r.val, by have hN : cfg3.N = 10 := N_3; have := t.isLt; have := r.isLt; omega⟩

abbrev oblk (c : Dev nD) (t : Fin cfg3.N) : Vec Ideal S5000x128 .f32 := iblk3 V c 0 t
abbrev yblk (c : Dev nD) (t : Fin cfg3.N) : Vec Ideal S5000x128 .f32 := iblk3 V c 1 t
abbrev bblk (c : Dev nD) (t : Fin cfg3.N) : Vec Ideal S5000x1 .i32 := iblk3 V c 2 t
abbrev mblk (c : Dev nD) (t : Fin cfg3.N) : Vec Ideal S128x128 .f32 := iblk3 V c 3 t
abbrev vblk (c : Dev nD) (t : Fin cfg3.N) : Vec Ideal S128x128 .f32 := iblk3 V c 4 t
abbrev wblk (c : Dev nD) (t : Fin cfg3.N) : Vec Ideal S1x128 .f32 := iblk3 V c 5 t
abbrev biasblk (c : Dev nD) (t : Fin cfg3.N) : Vec Ideal S1x128 .f32 := iblk3 V c 6 t
abbrev sblk (c : Dev nD) (t : Fin cfg3.N) : Vec Ideal S1x128 .f32 := iblk3 V c 7 t

theorem oblk_apply (c : Dev nD) (t : Fin cfg3.N) (r : Fin 5000) (f : Fin 128) :
    oblk V c t (ix2 r f) = (V c main_v74 : S50000x128.Idx → EReal) (ix2 (node t r) f) := by
  obtain ⟨e0, e1, -⟩ := idx_facts t
  exact congrArg (V c main_v74 : S50000x128.Idx → EReal) (RowOps.eq_ix2_of _ _ _ (by show win3_0.index t (0 : Fin 2) * 5000 + 1 * r.val = 5000 * t.val + r.val; rw [e0]; omega) (by show win3_0.index t (1 : Fin 2) * 128 + 1 * f.val = f.val; rw [e1]; omega))

theorem yblk_apply (c : Dev nD) (t : Fin cfg3.N) (r : Fin 5000) (f : Fin 128) :
    yblk V c t (ix2 r f) = (V c main_arg0 : S50000x128.Idx → EReal) (ix2 (node t r) f) := by
  obtain ⟨-, -, e0, e1, -⟩ := idx_facts t
  exact congrArg (V c main_arg0 : S50000x128.Idx → EReal) (RowOps.eq_ix2_of _ _ _ (by show win3_1.index t (0 : Fin 2) * 5000 + 1 * r.val = 5000 * t.val + r.val; rw [e0]; omega) (by show win3_1.index t (1 : Fin 2) * 128 + 1 * f.val = f.val; rw [e1]; omega))

theorem bblk_apply (c : Dev nD) (t : Fin cfg3.N) (r : Fin 5000) :
    bblk V c t (ix2 r 0) = (V c main_v75 : S50000x1.Idx → BitVec 32) (ix2 (node t r) 0) := by
  obtain ⟨-, -, -, -, e0, e1, -⟩ := idx_facts t
  exact congrArg (V c main_v75 : S50000x1.Idx → BitVec 32) (RowOps.eq_ix2_of _ _ _ (by show win3_2.index t (0 : Fin 2) * 5000 + 1 * r.val = 5000 * t.val + r.val; rw [e0]; omega) (by show win3_2.index t (1 : Fin 2) * 1 + 1 * 0 = 0; rw [e1]))

theorem mblk_apply (c : Dev nD) (t : Fin cfg3.N) (g f : Fin 128) :
    mblk V c t (ix2 g f) = (V c main_v80 : S128x128.Idx → EReal) (ix2 g f) := by
  obtain ⟨-, -, -, -, -, -, e0, e1, -⟩ := idx_facts t
  exact congrArg (V c main_v80 : S128x128.Idx → EReal) (RowOps.eq_ix2_of _ _ _ (by show win3_3.index t (0 : Fin 2) * 128 + 1 * g.val = g.val; rw [e0]; omega) (by show win3_3.index t (1 : Fin 2) * 128 + 1 * f.val = f.val; rw [e1]; omega))

theorem vblk_apply (c : Dev nD) (t : Fin cfg3.N) (g f : Fin 128) :
    vblk V c t (ix2 g f) = (V c main_v84 : S128x128.Idx → EReal) (ix2 g f) := by
  obtain ⟨-, -, -, -, -, -, -, -, e0, e1, -⟩ := idx_facts t
  exact congrArg (V c main_v84 : S128x128.Idx → EReal) (RowOps.eq_ix2_of _ _ _ (by show win3_4.index t (0 : Fin 2) * 128 + 1 * g.val = g.val; rw [e0]; omega) (by show win3_4.index t (1 : Fin 2) * 128 + 1 * f.val = f.val; rw [e1]; omega))

theorem wblk_apply (c : Dev nD) (t : Fin cfg3.N) (f : Fin 128) :
    wblk V c t (ix2 0 f) = (V c main_v85 : S1x128.Idx → EReal) (ix2 0 f) := by
  obtain ⟨-, -, -, -, -, -, -, -, -, -, e0, e1, -⟩ := idx_facts t
  exact congrArg (V c main_v85 : S1x128.Idx → EReal) (RowOps.eq_ix2_of _ _ _ (by show win3_5.index t (0 : Fin 2) * 1 + 1 * 0 = 0; rw [e0]) (by show win3_5.index t (1 : Fin 2) * 128 + 1 * f.val = f.val; rw [e1]; omega))

theorem biasblk_apply (c : Dev nD) (t : Fin cfg3.N) (f : Fin 128) :
    biasblk V c t (ix2 0 f) = (V c main_v86 : S1x128.Idx → EReal) (ix2 0 f) := by
  obtain ⟨-, -, -, -, -, -, -, -, -, -, -, -, e0, e1, -⟩ := idx_facts t
  exact congrArg (V c main_v86 : S1x128.Idx → EReal) (RowOps.eq_ix2_of _ _ _ (by show win3_6.index t (0 : Fin 2) * 1 + 1 * 0 = 0; rw [e0]) (by show win3_6.index t (1 : Fin 2) * 128 + 1 * f.val = f.val; rw [e1]; omega))

theorem sblk_apply (c : Dev nD) (t : Fin cfg3.N) (f : Fin 128) :
    sblk V c t (ix2 0 f) = (V c main_v81 : S1x128.Idx → EReal) (ix2 0 f) := by
  obtain ⟨-, -, -, -, -, -, -, -, -, -, -, -, -, -, e0, e1, -⟩ := idx_facts t
  exact congrArg (V c main_v81 : S1x128.Idx → EReal) (RowOps.eq_ix2_of _ _ _ (by show win3_7.index t (0 : Fin 2) * 1 + 1 * 0 = 0; rw [e0]) (by show win3_7.index t (1 : Fin 2) * 128 + 1 * f.val = f.val; rw [e1]; omega))

theorem emb_out (t : Fin cfg3.N) (r : Fin 5000) (f : Fin 128) :
    (((cfg3.win 8).blk t).view.emb (ix2 r f) : S50000x128.Idx) = ix2 (node t r) f := by
  obtain ⟨-, -, -, -, -, -, -, -, -, -, -, -, -, -, -, -, e0, e1⟩ := idx_facts t
  funext a
  apply Fin.ext
  match a with
  | ⟨0, _⟩ => show win3_8.index t (0 : Fin 2) * 5000 + 1 * r.val = 5000 * t.val + r.val; rw [e0]; omega
  | ⟨1, _⟩ => show win3_8.index t (1 : Fin 2) * 128 + 1 * f.val = f.val; rw [e1]; omega

theorem flushed_eq (c : Dev nD) (t : Fin cfg3.N) :
    (dat3 (F := Ideal) V c).flushed 8 t = ((cfg3.win 8).blk t).view.read (Elt Ideal)
      (Spec.resultA (V c main_v74) (V c main_arg0) (V c main_v75) (V c main_v80) (V c main_v84) (V c main_v85) (V c main_v86) (V c main_v81)) := by
  show (cfg3.win 8).cut (grid3.coords t) ((dat3 (F := Ideal) V c).after 8 t) = _
  rw [after3_8, out3_8_eq]
  refine funext fun (j : S5000x128.Idx) => ?_
  obtain ⟨r, f, rfl⟩ : ∃ (r : Fin 5000) (f : Fin 128), j = ix2 r f := ⟨j 0, j 1, eq_ix2 j⟩
  rw [View.read_apply, emb_out]
  show k3_pay1 (bblk V c t) (mblk V c t) (vblk V c t) (oblk V c t) (sblk V c t) (wblk V c t) (biasblk V c t) (yblk V c t) (ix2 r f)
    = Spec.result (V c main_v74) (V c main_arg0) (V c main_v75) (V c main_v80) (V c main_v84) (V c main_v85) (V c main_v86) (V c main_v81) (node t r) f
  rw [result_block, bblk_apply V c t r, oblk_apply V c t r f, sblk_apply V c t f, wblk_apply V c t f, biasblk_apply V c t f, yblk_apply V c t r f]
  simp only [mblk_apply V c t, vblk_apply V c t]
  rfl

theorem cover (i : S50000x128.Idx) : ∃ t : Fin cfg3.N, (cfg3.win 8).flush t = true ∧ i ∈ ((cfg3.win 8).blk t).view.set := by
  have hN : cfg3.N = 10 := N_3
  have hi0 : (i 0).val < 50000 := (i 0).isLt
  have hi1 : (i 1).val < 128 := (i 1).isLt
  have ht : (i 0).val / 5000 < cfg3.N := by rw [hN]; omega
  obtain ⟨-, -, -, -, -, -, -, -, -, -, -, -, -, -, -, -, e0, e1⟩ := idx_facts ⟨(i 0).val / 5000, ht⟩
  refine ⟨⟨(i 0).val / 5000, ht⟩, flush3_8 _, ?_⟩
  show i ∈ ((View.whole main_v87).slice (win3_8.rect ⟨(i 0).val / 5000, ht⟩)).set
  rw [View.set_slice_whole, Rect.mem_set_unit]
  intro a
  match a with
  | ⟨0, _⟩ =>
    show win3_8.index ⟨(i 0).val / 5000, ht⟩ (0 : Fin 2) * 5000 ≤ (i 0).val ∧ (i 0).val < win3_8.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_8.index ⟨(i 0).val / 5000, ht⟩ (1 : Fin 2) * 128 ≤ (i 1).val ∧ (i 1).val < win3_8.index ⟨(i 0).val / 5000, ht⟩ (1 : Fin 2) * 128 + 128
    rw [e1]; omega

end R3

theorem arr3 (c : Dev nD) :
    (dat3 (F := Ideal) V c).arrAt 8 cfg3.N = Spec.resultA (V c main_v74) (V c main_arg0) (V c main_v75) (V c main_v80) (V c main_v84)
      (V c main_v85) (V c main_v86) (V c main_v81) :=
  (dat3 (F := Ideal) V c).arrAt_eq_of_cover 8
    (Spec.resultA (V c main_v74) (V c main_arg0) (V c main_v75) (V c main_v80) (V c main_v84) (V c main_v85) (V c main_v86) (V c main_v81))
    (fun t _ => R3.flushed_eq V c t) R3.cover

end Cert.KernelIdeal.Val
end
-- ==== Proof.ValRun.lean ====
/-
  The four kernel calls and the host operations composed: the result buffer ends holding Spec.kernelVal of the nine arguments.
-/
import proofs.«413368_j28329604284661_1_alg».proof.Proof.FrRun
import proofs.«413368_j28329604284661_1_alg».proof.Proof.SpecRun
import proofs.«413368_j28329604284661_1_alg».proof.Proof.ValHost
import proofs.«413368_j28329604284661_1_alg».proof.Proof.ValR0
import proofs.«413368_j28329604284661_1_alg».proof.Proof.ValR1
import proofs.«413368_j28329604284661_1_alg».proof.Proof.ValR2
import proofs.«413368_j28329604284661_1_alg».proof.Proof.ValR3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
variable (m : (ℓ : Loc nD τ sig) → Buf (Elt Ideal) ℓ) (ρ : Dev nD → PrngReg)

theorem out_at5 (c : Dev nD) : W5 (F := Ideal) m ρ c (Proc.devRef .tc main_v74) = Spec.combA (W4 (F := Ideal) m ρ c (Proc.devRef .tc main_v72)) (W4 (F := Ideal) m ρ c (Proc.devRef .tc main_arg4)) (W4 (F := Ideal) m ρ c (Proc.devRef .tc main_v73)) :=
  (W5_arr m ρ c 3).trans (arr0 (V4 m ρ) c)
theorem sum_at7 (c : Dev nD) : W7 (F := Ideal) m ρ c (Proc.devRef .tc main_v76_0) = Spec.gsumA (W6 (F := Ideal) m ρ c (Proc.devRef .tc main_v74)) (W6 (F := Ideal) m ρ c (Proc.devRef .tc main_v75)) :=
  (W7_arr m ρ c 2).trans (arr1_sum (V6 m ρ) c)
theorem cnt_at7 (c : Dev nD) : W7 (F := Ideal) m ρ c (Proc.devRef .tc main_v76_1) = Spec.gcntA (W6 (F := Ideal) m ρ c (Proc.devRef .tc main_v75)) :=
  (W7_arr m ρ c 3).trans (arr1_cnt (V6 m ρ) c)
theorem sq_at9 (c : Dev nD) : W9 (F := Ideal) m ρ c (Proc.devRef .tc main_v82)
    = Spec.gsqA (W8 (F := Ideal) m ρ c (Proc.devRef .tc main_v74)) (W8 (F := Ideal) m ρ c (Proc.devRef .tc main_v75)) (W8 (F := Ideal) m ρ c (Proc.devRef .tc main_v80)) (W8 (F := Ideal) m ρ c (Proc.devRef .tc main_v81)) :=
  (W9_arr m ρ c 4).trans (arr2 (V8 m ρ) c)

theorem out_in7 (c : Dev nD) : W7 (F := Ideal) m ρ c (Proc.devRef .tc main_v74) = W6 (F := Ideal) m ρ c (Proc.devRef .tc main_v74) :=
  (W7_arr m ρ c 0).trans (((dat1 (V6 m ρ) c).arrAt_in 0 rfl _).trans (A_eq1 (V6 m ρ) c 0))
theorem bt_in7 (c : Dev nD) : W7 (F := Ideal) m ρ c (Proc.devRef .tc main_v75) = W6 (F := Ideal) m ρ c (Proc.devRef .tc main_v75) :=
  (W7_arr m ρ c 1).trans (((dat1 (V6 m ρ) c).arrAt_in 1 rfl _).trans (A_eq1 (V6 m ρ) c 1))
theorem out_in9 (c : Dev nD) : W9 (F := Ideal) m ρ c (Proc.devRef .tc main_v74) = W8 (F := Ideal) m ρ c (Proc.devRef .tc main_v74) :=
  (W9_arr m ρ c 0).trans (((dat2 (V8 m ρ) c).arrAt_in 0 rfl _).trans (A_eq2 (V8 m ρ) c 0))
theorem bt_in9 (c : Dev nD) : W9 (F := Ideal) m ρ c (Proc.devRef .tc main_v75) = W8 (F := Ideal) m ρ c (Proc.devRef .tc main_v75) :=
  (W9_arr m ρ c 1).trans (((dat2 (V8 m ρ) c).arrAt_in 1 rfl _).trans (A_eq2 (V8 m ρ) c 1))
theorem mean_in9 (c : Dev nD) : W9 (F := Ideal) m ρ c (Proc.devRef .tc main_v80) = W8 (F := Ideal) m ρ c (Proc.devRef .tc main_v80) :=
  (W9_arr m ρ c 2).trans (((dat2 (V8 m ρ) c).arrAt_in 2 rfl _).trans (A_eq2 (V8 m ρ) c 2))
theorem gs_in9 (c : Dev nD) : W9 (F := Ideal) m ρ c (Proc.devRef .tc main_v81) = W8 (F := Ideal) m ρ c (Proc.devRef .tc main_v81) :=
  (W9_arr m ρ c 3).trans (((dat2 (V8 m ρ) c).arrAt_in 3 rfl _).trans (A_eq2 (V8 m ρ) c 3))

/-- The kernel's program ends with Spec.kernelVal of its arguments in its result buffer. -/
theorem kernel_result (c : Dev nD) :
    W11 (F := Ideal) m ρ c (Proc.devRef .tc main_v87) = Spec.kernelVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 8).trans ((arr3 (V10 m ρ) c).trans ?_)
  show Spec.resultA (W10 (F := Ideal) m ρ c (Proc.devRef .tc main_v74)) (W10 (F := Ideal) m ρ c (Proc.devRef .tc main_arg0)) (W10 (F := Ideal) m ρ c (Proc.devRef .tc main_v75)) (W10 (F := Ideal) m ρ c (Proc.devRef .tc main_v80))
    (W10 (F := Ideal) m ρ c (Proc.devRef .tc main_v84)) (W10 (F := Ideal) m ρ c (Proc.devRef .tc main_v85)) (W10 (F := Ideal) m ρ c (Proc.devRef .tc main_v86)) (W10 (F := Ideal) m ρ c (Proc.devRef .tc main_v81)) = _
  rw [W10_v84, W10_v85, W10_v86, W10_of m ρ c main_v74 (by decide), W10_of m ρ c main_v75 (by decide), W10_of m ρ c main_v80 (by decide),
    W10_of m ρ c main_v81 (by decide), W10_of m ρ c main_arg0 (by decide),
    sq_at9, out_in9, bt_in9, mean_in9, gs_in9, W9_of_ne m ρ c main_arg0 (by decide),
    W8_v80, W8_v81, W8_of m ρ c main_v74 (by decide), W8_of m ρ c main_v75 (by decide), W8_of m ρ c main_arg0 (by decide),
    sum_at7, cnt_at7, out_in7, bt_in7, W7_of_ne m ρ c main_arg0 (by decide),
    W6_v75, W6_of m ρ c main_v74 (by decide), W6_of m ρ c main_arg0 (by decide),
    out_at5, W5_of_ne m ρ c main_arg0 (by decide), W4_v72, W4_v73,
    (W4_of m ρ c main_arg4 (by decide)).trans (W3_arg m ρ c main_arg4 (by decide) (by decide) (by decide)),
    (W4_of m ρ c main_arg0 (by decide)).trans (W3_arg m ρ c main_arg0 (by decide) (by decide) (by decide))]
  rfl

end Cert.KernelIdeal.Val

end
-- ==== Proof.RefOut.lean ====
/-
  The reference's combined node features are Spec.outV: the index maps of its four matrix products, then entry by entry.
-/
import proofs.«413368_j28329604284661_1_alg».proof.Proof.SpecRun
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.TcCoe Idealize.ShloMosaic.ValueIdx
open Cert.KernelIdeal (Spec.kernelVal Spec.outV)

theorem lidx_v31 (n : Fin 50000) (f k : Fin 128) : lidx_main_v31 (ix2 n f) k = ix2 n k :=
  funext fun a => Fin.ext (by match a with | ⟨0, _⟩ => rfl | ⟨1, _⟩ => rfl)
theorem lidx_v47 (n : Fin 50000) (f k : Fin 128) : lidx_main_v47 (ix2 n f) k = ix2 n k := lidx_v31 n f k
theorem lidx_v64 (n : Fin 50000) (f k : Fin 128) : lidx_main_v64 (ix2 n f) k = ix2 n k := lidx_v31 n f k
theorem lidx_v81 (n : Fin 50000) (f k : Fin 128) : lidx_main_v81 (ix2 n f) k = ix2 n k := lidx_v31 n f k

theorem widx (i : S4x128x128.Idx) (s : Fin 4) (k f : Fin 128) (h0 : (i 0).val = s.val)
    (h1 : (i 1).val = (k.val * 128 + f.val) / 128 % 128) (h2 : (i 2).val = (k.val * 128 + f.val) % 128) : i = ix3 s k f :=
  funext fun a => Fin.ext (by
    have hk := k.isLt
    have hf := f.isLt
    match a with
    | ⟨0, _⟩ => exact h0
    | ⟨1, _⟩ => exact h1.trans (show _ = k.val by omega)
    | ⟨2, _⟩ => exact h2.trans (show _ = f.val by omega))
theorem widx_0 (n : Fin 50000) (f k : Fin 128) : idx_main_v29 (idx_main_v30 (ridx_main_v31 (ix2 n f) k)) = ix3 0 k f := widx _ 0 k f rfl rfl rfl
theorem widx_1 (n : Fin 50000) (f k : Fin 128) : idx_main_v45 (idx_main_v46 (ridx_main_v47 (ix2 n f) k)) = ix3 1 k f := widx _ 1 k f rfl rfl rfl
theorem widx_2 (n : Fin 50000) (f k : Fin 128) : idx_main_v62 (idx_main_v63 (ridx_main_v64 (ix2 n f) k)) = ix3 2 k f := widx _ 2 k f rfl rfl rfl
theorem widx_3 (n : Fin 50000) (f k : Fin 128) : idx_main_v79 (idx_main_v80 (ridx_main_v81 (ix2 n f) k)) = ix3 3 k f := widx _ 3 k f rfl rfl rfl

theorem bidx (n : Fin 50000) (f : Fin 128) : idx_main_v83 (idx_main_v84 (ix2 n f)) = ix1 f :=
  funext fun a => Fin.ext (by match a with | ⟨0, _⟩ => rfl)

section
variable (y : S50000x128.Idx → EReal) (ei : S2x625000.Idx → BitVec 32) (ew : S625000.Idx → EReal) (n : Fin 50000) (k : Fin 128)
theorem hopA_0 :
    Cert.KernelIdeal.Spec.hopA y ei ew (ix3 0 n k) = y (ix2 n k) := rfl
theorem hopA_1 :
    Cert.KernelIdeal.Spec.hopA y ei ew (ix3 1 n k) = val_main_v44 (F := Ideal) y ei ew (ix2 n k) := rfl
theorem hopA_2 :
    Cert.KernelIdeal.Spec.hopA y ei ew (ix3 2 n k) = val_main_v61 (F := Ideal) y ei ew (ix2 n k) := rfl
theorem hopA_3 :
    Cert.KernelIdeal.Spec.hopA y ei ew (ix3 3 n k) = val_main_v78 (F := Ideal) y ei ew (ix2 n k) := rfl
end

theorem rowOf_ix2 (v : S128.Idx → EReal) (f : Fin 128) : Cert.KernelIdeal.Spec.rowOf v (ix2 0 f) = v (ix1 f) := rfl

theorem ref_out (y : S50000x128.Idx → EReal) (ei : S2x625000.Idx → BitVec 32) (ew : S625000.Idx → EReal)
    (tw : S4x128x128.Idx → EReal) (tb : S128.Idx → EReal) :
    val_main_v85 (F := Ideal) y ei ew tw tb = Cert.KernelIdeal.Spec.outV y ei ew tw tb := by
  funext i
  obtain ⟨n, f, rfl⟩ : ∃ (n : Fin 50000) (f : Fin 128), i = ix2 n f :=
    ⟨_, _, Cert.KernelIdeal.Spec.eq_ix2_row_col i⟩
  rw [val_main_v85_apply, val_main_v82_apply, val_main_v65_apply, val_main_v48_apply,
    val_main_v31_apply, val_main_v47_apply, val_main_v64_apply, val_main_v81_apply,
    val_main_v84_apply, val_main_v83_apply]
  simp only [val_main_v30_apply, val_main_v29_apply, val_main_v46_apply, val_main_v45_apply,
    val_main_v63_apply, val_main_v62_apply, val_main_v80_apply, val_main_v79_apply,
    lidx_v31, lidx_v47, lidx_v64, lidx_v81, widx_0, widx_1, widx_2, widx_3, bidx, Ideal.addf_def]
  show _ = Cert.KernelIdeal.Spec.comb (Cert.KernelIdeal.Spec.hopA y ei ew) tw (Cert.KernelIdeal.Spec.rowOf tb) n f
  unfold Cert.KernelIdeal.Spec.comb
  simp only [hopA_0, hopA_1, hopA_2, hopA_3, rowOf_ix2]

end Cert.ReferenceIdeal.RefValue

end
-- ==== Proof.SpecFacts.lean ====
/-
  For a label whose signed value lies in [0, 128) the indicator is a case split on that value. So an indicator-weighted sum
  over the graphs keeps exactly one term, and a per-graph total is a sum over the nodes of "the entry if the node is in the graph, else 0".
-/
import proofs.«413368_j28329604284661_1_alg».proof.Proof.Spec

noncomputable section

namespace Cert.KernelIdeal.Spec

open Cert.KernelIdeal Idealize.ShloMosaic Idealize.ShloMosaic.ValueIdx

/-- Below 2^31 the signed and unsigned readings of a word agree. -/
theorem word_eq_iff (b : BitVec 32) (h0 : 0 ≤ b.toInt) (h1 : b.toInt < 128) (g : Fin 128) :
    b = BitVec.ofNat 32 g.val ↔ b.toInt = (g.val : Int) := by
  have hb := b.isLt
  have hg := g.isLt
  have hI := BitVec.toInt_eq_toNat_cond b
  constructor
  · intro h
    have hn : b.toNat = g.val := by rw [h, BitVec.toNat_ofNat]; omega
    split_ifs at hI <;> omega
  · intro h
    apply BitVec.eq_of_toNat_eq
    rw [BitVec.toNat_ofNat]
    split_ifs at hI <;> omega

theorem oh_eq (b : BitVec 32) (h0 : 0 ≤ b.toInt) (h1 : b.toInt < 128) (g : Fin 128) :
    oh b g = if b.toInt = (g.val : Int) then 1 else 0 := by
  unfold oh
  exact if_congr (word_eq_iff b h0 h1 g) rfl rfl

theorem oh_mul (b : BitVec 32) (h0 : 0 ≤ b.toInt) (h1 : b.toInt < 128) (g : Fin 128) (x : EReal) :
    oh b g * x = if b.toInt = (g.val : Int) then x else 0 := by
  rw [oh_eq b h0 h1 g, ite_mul, one_mul, zero_mul]

/-- Of the 128 indicator-weighted entries only the node's own graph's is kept. -/
theorem pick_eq (bt : S50000x1.Idx → BitVec 32) (t : S128x128.Idx → EReal) (n : Fin 50000) (f : Fin 128)
    (h0 : 0 ≤ (bt (ix2 n 0)).toInt) (h1 : (bt (ix2 n 0)).toInt < 128) :
    pick bt t n f = t (ix2 ⟨(bt (ix2 n 0)).toInt.toNat, by omega⟩ f) := by
  unfold pick
  rw [Finset.sum_eq_single (⟨(bt (ix2 n 0)).toInt.toNat, by omega⟩ : Fin 128)]
  · rw [oh_mul _ h0 h1, if_pos]
    show (bt (ix2 n 0)).toInt = (((bt (ix2 n 0)).toInt.toNat : Nat) : Int)
    omega
  · intro g _ hg
    rw [oh_mul _ h0 h1, if_neg]
    intro he
    apply hg
    apply Fin.ext
    show g.val = (bt (ix2 n 0)).toInt.toNat
    omega
  · intro hn
    exact absurd (Finset.mem_univ _) hn

theorem gsum_eq_ite (o : S50000x128.Idx → EReal) (bt : S50000x1.Idx → BitVec 32) (g f : Fin 128)
    (hb : ∀ n : Fin 50000, 0 ≤ (bt (ix2 n 0)).toInt ∧ (bt (ix2 n 0)).toInt < 128) :
    gsum o bt g f = ∑ n : Fin 50000, if (bt (ix2 n 0)).toInt = (g.val : Int) then o (ix2 n f) else 0 := by
  unfold gsum
  exact Finset.sum_congr rfl fun n _ => oh_mul _ (hb n).1 (hb n).2 g _

theorem gcnt_eq_ite (bt : S50000x1.Idx → BitVec 32) (g : Fin 128)
    (hb : ∀ n : Fin 50000, 0 ≤ (bt (ix2 n 0)).toInt ∧ (bt (ix2 n 0)).toInt < 128) :
    gcnt bt g = ∑ n : Fin 50000, if (bt (ix2 n 0)).toInt = (g.val : Int) then (1 : EReal) else 0 := by
  unfold gcnt
  exact Finset.sum_congr rfl fun n _ => oh_eq _ (hb n).1 (hb n).2 g

end Cert.KernelIdeal.Spec

end
-- ==== Proof.RefGnA.lean ====
/-
  With every label in [0, 64), the reference's per-graph tables (segment sums over 64 graphs, counts taken as at least one, quotients)
  are the block's indicator-weighted ones on the first 64 of its 128 graph slots.
-/
import proofs.«413368_j28329604284661_1_alg».proof.Proof.SpecRun
import proofs.«413368_j28329604284661_1_alg».proof.Proof.LibRowOps
import proofs.«413368_j28329604284661_1_alg».proof.Proof.SpecFacts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.TcCoe Idealize.ShloMosaic.ValueIdx
open Cert.RowOps Cert.KernelIdeal.Spec

open Cert.KernelIdeal

theorem ofBits_one : Ideal.ofBits .f32 0x3F800000#32 = 1 := by
  simp [Ideal.ofBits, Ideal.ieee, -EReal.coe_mul]; norm_num

theorem zero_v93 (i : S64x128.Idx) : val_main_v93 (F := Ideal) i = 0 := by
  rw [val_main_v93_apply, val_main_cst_18_apply, Ideal.ofBits_def, Ideal.ofBits_zero_f32]
theorem zero_v110 (i : S64x128.Idx) : val_main_v110 (F := Ideal) i = 0 := zero_v93 i

theorem col_v88 (bt : S50000.Idx → BitVec 32) (n : Fin 50000) : val_main_v88 (F := Ideal) bt (ix2 n 0) = bt (ix1 n) := by
  rw [val_main_v88_apply]; exact congrArg bt (funext fun a => Fin.ext (by match a with | ⟨0, _⟩ => rfl))
theorem col_v94 (bt : S50000.Idx → BitVec 32) (n : Fin 50000) : val_main_v94 (F := Ideal) bt (ix2 n 0) = bt (ix1 n) := col_v88 bt n
theorem col_v111 (bt : S50000.Idx → BitVec 32) (n : Fin 50000) : val_main_v111 (F := Ideal) bt (ix2 n 0) = bt (ix1 n) := col_v88 bt n

theorem gnA_labels (bt : S50000.Idx → BitVec 32) (hb : ∀ n : Fin 50000, 0 ≤ (bt (ix1 n)).toInt ∧ (bt (ix1 n)).toInt < 64) :
    ∀ n : Fin 50000, 0 ≤ (Spec.colOf bt (ix2 n 0)).toInt ∧ (Spec.colOf bt (ix2 n 0)).toInt < 128 :=
  fun n => ⟨(hb n).1, lt_trans (hb n).2 (by decide)⟩

theorem gnA_v89 (bt : S50000.Idx → BitVec 32) (g : Fin 64) :
    val_main_v89 (F := Ideal) bt (ix1 g) = ∑ n : Fin 50000, if (bt (ix1 n)).toInt = (g.val : Int) then (1 : EReal) else 0 := by
  unfold val_main_v89
  show Ideal.hostScatterAdd scatter_S64_S50000x1_S50000_n_0_0_1 (val_main_v87 (F := Ideal)) (val_main_v88 (F := Ideal) bt)
    (val_main_v86 (F := Ideal)) (ix1 g) = _
  rw [scatterAdd_elts_apply scatter_S64_S50000x1_S50000_n_0_0_1 rfl rfl rfl rfl _ _ _ g,
    val_main_v87_apply, val_main_cst_16_apply, Ideal.ofBits_def, Ideal.ofBits_zero_f32, zero_add]
  refine Finset.sum_congr rfl fun n _ => ?_
  rw [col_v88, val_main_v86_apply, val_main_cst_15_apply, Ideal.ofBits_def, ofBits_one]

theorem gnA_idx96 (g : Fin 64) (f : Fin 128) : idx_main_v92 (idx_main_v96 (ix2 g f)) = ix1 g :=
  funext fun a => Fin.ext (by match a with | ⟨0, _⟩ => rfl)

theorem ref_cnt (bt : S50000.Idx → BitVec 32) (hb : ∀ n : Fin 50000, 0 ≤ (bt (ix1 n)).toInt ∧ (bt (ix1 n)).toInt < 64)
    (g : Fin 64) :
    val_main_v91 (F := Ideal) bt (ix1 g) = max (Spec.gcnt (Spec.colOf bt) (Fin.castLE (by decide) g)) 1 := by
  rw [val_main_v91_apply, Ideal.maximumf_def, gnA_v89, val_main_v90_apply, val_main_cst_17_apply, Ideal.ofBits_def, ofBits_one,
    Spec.gcnt_eq_ite (Spec.colOf bt) (Fin.castLE (by decide) g) (gnA_labels bt hb)]
  rfl

theorem cnt_v96 (bt : S50000.Idx → BitVec 32) (hb : ∀ n : Fin 50000, 0 ≤ (bt (ix1 n)).toInt ∧ (bt (ix1 n)).toInt < 64)
    (g : Fin 64) (f : Fin 128) :
    val_main_v96 (F := Ideal) bt (ix2 g f) = max (Spec.gcnt (Spec.colOf bt) (Fin.castLE (by decide) g)) 1 := by
  rw [val_main_v96_apply, val_main_v92_apply, gnA_idx96]
  exact ref_cnt bt hb g
theorem cnt_v113 (bt : S50000.Idx → BitVec 32) (hb : ∀ n : Fin 50000, 0 ≤ (bt (ix1 n)).toInt ∧ (bt (ix1 n)).toInt < 64)
    (g : Fin 64) (f : Fin 128) :
    val_main_v113 (F := Ideal) bt (ix2 g f) = max (Spec.gcnt (Spec.colOf bt) (Fin.castLE (by decide) g)) 1 := cnt_v96 bt hb g f

theorem seg_div (bt : S50000.Idx → BitVec 32) (hb : ∀ n : Fin 50000, 0 ≤ (bt (ix1 n)).toInt ∧ (bt (ix1 n)).toInt < 64)
    (z : S64x128.Idx → EReal) (idx : S50000x1.Idx → BitVec 32) (c : S64x128.Idx → EReal) (u : S50000x128.Idx → EReal)
    (hz : ∀ i, z i = 0) (hidx : ∀ n : Fin 50000, idx (ix2 n 0) = bt (ix1 n))
    (hc : ∀ (g : Fin 64) (f : Fin 128), c (ix2 g f) = max (Spec.gcnt (Spec.colOf bt) (Fin.castLE (by decide) g)) 1)
    (g : Fin 64) (f : Fin 128) :
    Host.divf (F := Ideal) (φ := .f32) (Host.scatterAdd (F := Ideal) (φ := .f32) scatter_S64x128_S50000x1_S50000x128_1_0_0_1 z idx u) c (ix2 g f)
      = Spec.meanV u bt (ix2 (Fin.castLE (by decide) g) f) := by
  show FloatOps.hostDivf (F := Ideal)
    (Ideal.hostScatterAdd scatter_S64x128_S50000x1_S50000x128_1_0_0_1 z idx u (ix2 g f)) (c (ix2 g f)) = _
  rw [Ideal.hostDivf_def, hc g f,
    scatterAdd_rows_apply scatter_S64x128_S50000x1_S50000x128_1_0_0_1 rfl rfl rfl rfl z idx u g f, hz, zero_add]
  unfold Spec.meanV Spec.gdivA Spec.gdiv Spec.gsumA Spec.gcntA
  simp only [Spec.row_ix2, Spec.col_ix2]
  rw [Spec.gsum_eq_ite u (Spec.colOf bt) (Fin.castLE (by decide) g) f (gnA_labels bt hb)]
  have hs : (∑ e : Fin 50000, if (idx (ix2 e 0)).toInt = (g.val : Int) then u (ix2 e f) else 0)
      = ∑ n : Fin 50000, if (Spec.colOf bt (ix2 n 0)).toInt = ((Fin.castLE (by decide : 64 ≤ 128) g).val : Int) then u (ix2 n f) else 0 :=
    Finset.sum_congr rfl fun n _ => by rw [hidx n]; rfl
  rw [hs]

end Cert.ReferenceIdeal.RefValue

end
-- ==== Proof.RefGnB.lean ====
/-
  With every label in [0, 64), the reference's gather of a per-graph table by the labels reads the row of the node's own graph.
-/
import proofs.«413368_j28329604284661_1_alg».proof.Proof.SpecRun
import proofs.«413368_j28329604284661_1_alg».proof.Proof.LibRowOps
import proofs.«413368_j28329604284661_1_alg».proof.Proof.SpecFacts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.TcCoe Idealize.ShloMosaic.ValueIdx
open Cert.RowOps Cert.KernelIdeal.Spec

open Cert.KernelIdeal

theorem wrap_label (b : BitVec 32) (h0 : 0 ≤ b.toInt) :
    Scalar.select (IntOp.cmpi .slt b 0#32) (IntOp.addi b 64#32) b = b := by
  have h : b.slt 0#32 = false := by
    rw [BitVec.slt]; simp; omega
  unfold IntOp.cmpi Scalar.select
  simp [h]

theorem col_v103 (bt : S50000.Idx → BitVec 32) (n : Fin 50000) (h0 : 0 ≤ (bt (ix1 n)).toInt) :
    val_main_v103 (F := Ideal) bt (ix2 n 0) = bt (ix1 n) := by
  have hi : idx_main_v103 (ix2 n (0 : Fin 1)) = ix1 n := funext fun a => Fin.ext (by match a with | ⟨0, _⟩ => rfl)
  rw [val_main_v103_apply, val_main_v102_apply, val_main_v99_apply, val_main_v101_apply, val_main_v98_apply,
    val_main_v100_apply, val_main_c_19_apply, val_main_c_20_apply, hi]
  exact wrap_label _ h0
theorem col_v123 (bt : S50000.Idx → BitVec 32) (n : Fin 50000) (h0 : 0 ≤ (bt (ix1 n)).toInt) :
    val_main_v123 (F := Ideal) bt (ix2 n 0) = bt (ix1 n) := col_v103 bt n h0

theorem gather_eq_pick (T64 : S64x128.Idx → EReal) (T128 : S128x128.Idx → EReal)
    (hT : ∀ (g : Fin 64) (f : Fin 128), T64 (ix2 g f) = T128 (ix2 (Fin.castLE (by decide) g) f))
    (idx : S50000x1.Idx → BitVec 32) (bt : S50000.Idx → BitVec 32)
    (hb : ∀ n : Fin 50000, 0 ≤ (bt (ix1 n)).toInt ∧ (bt (ix1 n)).toInt < 64)
    (hidx : ∀ n : Fin 50000, idx (ix2 n 0) = bt (ix1 n)) (n : Fin 50000) (f : Fin 128) :
    Host.gather gather_S64x128_S50000x1_S50000x128_1_0_n_n_0_1_1128 T64 idx (ix2 n f) = Spec.pick (Spec.colOf bt) T128 n f := by
  have h0 : 0 ≤ (bt (ix1 n)).toInt := (hb n).1
  have h1 : (bt (ix1 n)).toInt < 64 := (hb n).2
  have hc : Spec.colOf bt (ix2 n 0) = bt (ix1 n) := rfl
  have h0c : 0 ≤ (Spec.colOf bt (ix2 n 0)).toInt := by rw [hc]; exact h0
  have h1c : (Spec.colOf bt (ix2 n 0)).toInt < 128 := by rw [hc]; omega
  rw [Spec.pick_eq (Spec.colOf bt) T128 n f h0c h1c]
  refine (gather_rows_apply (by decide) gather_S64x128_S50000x1_S50000x128_1_0_n_n_0_1_1128
    rfl rfl rfl rfl rfl rfl rfl T64 idx n f).trans ?_
  rw [hT]
  refine congrArg (fun g => T128 (ix2 g f)) (Fin.ext ?_)
  show min (idx (ix2 n 0)).toInt.toNat (64 - 1) = (Spec.colOf bt (ix2 n 0)).toInt.toNat
  rw [hidx n, hc]
  omega

end Cert.ReferenceIdeal.RefValue

end
-- ==== Proof.RefGn.lean ====
/-
  The reference after its combined node features is the block's value, entry by entry.
-/
import proofs.«413368_j28329604284661_1_alg».proof.Proof.SpecRun
import proofs.«413368_j28329604284661_1_alg».proof.Proof.RefOut
import proofs.«413368_j28329604284661_1_alg».proof.Proof.RefGnA
import proofs.«413368_j28329604284661_1_alg».proof.Proof.RefGnB
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.TcCoe Idealize.ShloMosaic.ValueIdx
open Cert.KernelIdeal (Spec.kernelVal Spec.outV)
open Cert.KernelIdeal

theorem row_v106 (v : S128.Idx → EReal) (n : Fin 50000) (f : Fin 128) :
    val_main_v106 (F := Ideal) v (ix2 n f) = Spec.rowOf v (ix2 0 f) := by
  rw [val_main_v106_apply, val_main_v105_apply]
  exact congrArg v (funext fun a => Fin.ext (by match a with | ⟨0, _⟩ => rfl))
theorem row_v116 (v : S128.Idx → EReal) (n : Fin 50000) (f : Fin 128) :
    val_main_v116 (F := Ideal) v (ix2 n f) = Spec.rowOf v (ix2 0 f) := row_v106 v n f
theorem row_v130 (v : S128.Idx → EReal) (n : Fin 50000) (f : Fin 128) :
    val_main_v130 (F := Ideal) v (ix2 n f) = Spec.rowOf v (ix2 0 f) := row_v106 v n f

def rXc (o : S50000x128.Idx → EReal) (bt : S50000.Idx → BitVec 32) (gs : S128.Idx → EReal) : S50000x128.Idx → EReal :=
  subf (F := Ideal) (φ := .f32) o (mulf (F := Ideal) (φ := .f32) (val_main_v106 (F := Ideal) gs)
    (Host.gather gather_S64x128_S50000x1_S50000x128_1_0_n_n_0_1_1128
      (Host.divf (F := Ideal) (φ := .f32) (Host.scatterAdd (F := Ideal) (φ := .f32) scatter_S64x128_S50000x1_S50000x128_1_0_0_1 (val_main_v93 (F := Ideal)) (val_main_v94 (F := Ideal) bt) o)
        (val_main_v96 (F := Ideal) bt))
      (val_main_v103 (F := Ideal) bt)))

def rRes (o y : S50000x128.Idx → EReal) (bt : S50000.Idx → BitVec 32) (gw gb gs : S128.Idx → EReal) : S50000x128.Idx → EReal :=
  addf (F := Ideal) (φ := .f32) y (maximumf (F := Ideal) (φ := .f32)
    (addf (F := Ideal) (φ := .f32)
      (mulf (F := Ideal) (φ := .f32) (mulf (F := Ideal) (φ := .f32) (val_main_v116 (F := Ideal) gw) (rXc o bt gs))
        (Host.rsqrt (F := Ideal) (φ := .f32) (addf (F := Ideal) (φ := .f32)
          (Host.gather gather_S64x128_S50000x1_S50000x128_1_0_n_n_0_1_1128
            (Host.divf (F := Ideal) (φ := .f32) (Host.scatterAdd (F := Ideal) (φ := .f32) scatter_S64x128_S50000x1_S50000x128_1_0_0_1 (val_main_v110 (F := Ideal)) (val_main_v111 (F := Ideal) bt)
                (mulf (F := Ideal) (φ := .f32) (rXc o bt gs) (rXc o bt gs)))
              (val_main_v113 (F := Ideal) bt))
            (val_main_v123 (F := Ideal) bt))
          (val_main_v125 (F := Ideal)))))
      (val_main_v130 (F := Ideal) gb))
    (val_main_call1_v0 (F := Ideal)))

theorem v133_eq (y : S50000x128.Idx → EReal) (ei : S2x625000.Idx → BitVec 32) (ew : S625000.Idx → EReal)
    (bt : S50000.Idx → BitVec 32) (tw : S4x128x128.Idx → EReal) (tb gw gb gs : S128.Idx → EReal) :
    val_main_v133 (F := Ideal) y ei ew bt tw tb gw gb gs = rRes (val_main_v85 (F := Ideal) y ei ew tw tb) y bt gw gb gs := rfl

theorem mean_tab (o : S50000x128.Idx → EReal) (bt : S50000.Idx → BitVec 32)
    (hb : ∀ n : Fin 50000, 0 ≤ (bt (ix1 n)).toInt ∧ (bt (ix1 n)).toInt < 64) (g : Fin 64) (f : Fin 128) :
    Host.divf (F := Ideal) (φ := .f32) (Host.scatterAdd (F := Ideal) (φ := .f32) scatter_S64x128_S50000x1_S50000x128_1_0_0_1 (val_main_v93 (F := Ideal)) (val_main_v94 (F := Ideal) bt) o)
        (val_main_v96 (F := Ideal) bt) (ix2 g f)
      = Spec.meanV o bt (ix2 (Fin.castLE (by decide) g) f) :=
  seg_div bt hb _ _ _ o zero_v93 (col_v94 bt) (cnt_v96 bt hb) g f

theorem rXc_apply (o : S50000x128.Idx → EReal) (bt : S50000.Idx → BitVec 32) (gs : S128.Idx → EReal)
    (hb : ∀ n : Fin 50000, 0 ≤ (bt (ix1 n)).toInt ∧ (bt (ix1 n)).toInt < 64) (n : Fin 50000) (f : Fin 128) :
    rXc o bt gs (ix2 n f) = Spec.centred o (Spec.colOf bt) (Spec.meanV o bt) (Spec.rowOf gs) n f := by
  unfold rXc Spec.centred
  rw [subf_apply, mulf_apply, row_v106,
    gather_eq_pick _ (Spec.meanV o bt) (mean_tab o bt hb) _ bt hb (fun n => col_v103 bt n (hb n).1) n f]

def sqTab (o : S50000x128.Idx → EReal) (bt : S50000.Idx → BitVec 32) (gs : S128.Idx → EReal) : S50000x128.Idx → EReal :=
  fun i => Spec.centred o (Spec.colOf bt) (Spec.meanV o bt) (Spec.rowOf gs) (Spec.row i) (Spec.col i)
    * Spec.centred o (Spec.colOf bt) (Spec.meanV o bt) (Spec.rowOf gs) (Spec.row i) (Spec.col i)

theorem varV_eq (o : S50000x128.Idx → EReal) (bt : S50000.Idx → BitVec 32) (gs : S128.Idx → EReal) :
    Spec.varV o bt gs = Spec.meanV (sqTab o bt gs) bt := rfl

theorem sq_eq (o : S50000x128.Idx → EReal) (bt : S50000.Idx → BitVec 32) (gs : S128.Idx → EReal)
    (hb : ∀ n : Fin 50000, 0 ≤ (bt (ix1 n)).toInt ∧ (bt (ix1 n)).toInt < 64) :
    mulf (F := Ideal) (φ := .f32) (rXc o bt gs) (rXc o bt gs) = sqTab o bt gs := by
  funext i
  obtain ⟨n, f, rfl⟩ : ∃ (n : Fin 50000) (f : Fin 128), i = ix2 n f := ⟨Spec.row i, Spec.col i, Spec.eq_ix2_row_col i⟩
  rw [mulf_apply, rXc_apply o bt gs hb]
  rfl

theorem var_tab (o : S50000x128.Idx → EReal) (bt : S50000.Idx → BitVec 32) (gs : S128.Idx → EReal)
    (hb : ∀ n : Fin 50000, 0 ≤ (bt (ix1 n)).toInt ∧ (bt (ix1 n)).toInt < 64) (g : Fin 64) (f : Fin 128) :
    Host.divf (F := Ideal) (φ := .f32) (Host.scatterAdd (F := Ideal) (φ := .f32) scatter_S64x128_S50000x1_S50000x128_1_0_0_1 (val_main_v110 (F := Ideal)) (val_main_v111 (F := Ideal) bt)
          (mulf (F := Ideal) (φ := .f32) (rXc o bt gs) (rXc o bt gs)))
        (val_main_v113 (F := Ideal) bt) (ix2 g f)
      = Spec.varV o bt gs (ix2 (Fin.castLE (by decide) g) f) := by
  rw [varV_eq, ← sq_eq o bt gs hb]
  exact seg_div bt hb _ _ _ _ zero_v110 (col_v111 bt) (cnt_v113 bt hb) g f

theorem rRes_apply (o y : S50000x128.Idx → EReal) (bt : S50000.Idx → BitVec 32) (gw gb gs : S128.Idx → EReal)
    (hb : ∀ n : Fin 50000, 0 ≤ (bt (ix1 n)).toInt ∧ (bt (ix1 n)).toInt < 64) (n : Fin 50000) (f : Fin 128) :
    rRes o y bt gw gb gs (ix2 n f)
      = Spec.result o y (Spec.colOf bt) (Spec.meanV o bt) (Spec.varV o bt gs) (Spec.rowOf gw) (Spec.rowOf gb) (Spec.rowOf gs) n f := by
  unfold rRes Spec.result
  rw [addf_apply, maximumf_apply, addf_apply, mulf_apply, mulf_apply, row_v116, rXc_apply o bt gs hb, row_v130]
  show _ + max (_ * _ * FloatOps.hostUnary (F := Ideal) (φ := .f32) .rsqrt (Host.gather _ _ _ (ix2 n f) + val_main_v125 (F := Ideal) (ix2 n f)) + _)
    (val_main_call1_v0 (F := Ideal) (ix2 n f)) = _
  rw [gather_eq_pick _ (Spec.varV o bt gs) (var_tab o bt gs hb) _ bt hb (fun n => col_v123 bt n (hb n).1) n f,
    val_main_v125_apply, val_main_cst_24_apply, val_main_call1_v0_apply, val_main_call1_cst_apply,
    Ideal.hostUnary_rsqrt_def, Ideal.ofBits_def, Ideal.ofBits_def]

/-- With every label in [0, 64) the reference's result is Spec.kernelVal of its arguments. -/
theorem ref_result (y : S50000x128.Idx → EReal) (ei : S2x625000.Idx → BitVec 32) (ew : S625000.Idx → EReal)
    (bt : S50000.Idx → BitVec 32) (tw : S4x128x128.Idx → EReal) (tb gw gb gs : S128.Idx → EReal)
    (hb : ∀ n : Fin 50000, 0 ≤ (bt (ix1 n)).toInt ∧ (bt (ix1 n)).toInt < 64) :
    val_main_v133 (F := Ideal) y ei ew bt tw tb gw gb gs = Cert.KernelIdeal.Spec.kernelVal y ei ew bt tw tb gw gb gs := by
  rw [v133_eq, ref_out]
  unfold Spec.kernelVal
  generalize Spec.outV y ei ew tw tb = o
  funext i
  obtain ⟨n, f, rfl⟩ : ∃ (n : Fin 50000) (f : Fin 128), i = ix2 n f := ⟨Spec.row i, Spec.col i, Spec.eq_ix2_row_col i⟩
  exact rRes_apply o y bt gw gb gs hb n f

end Cert.ReferenceIdeal.RefValue

end
-- ==== Proof.PreDecode.lean ====
/-
  The precondition's last conjunct read back: every node's graph label, read as a signed number, lies in [0, 64).
-/
import proofs.«413368_j28329604284661_1_alg».proof.Defs
import proofs.«413368_j28329604284661_1_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Decode

open Idealize.ShloMosaic Idealize.ShloMosaic.ValueIdx Cert.Pre_finite_inputs

instance subsingleton_scalar_idx : Subsingleton S_.Idx := ⟨fun a b => funext fun d => d.elim0⟩

theorem word_in_range (w : BitVec 32) (h0 : IntOp.cmpi .sge w 0#32 = 1#1) (h64 : IntOp.cmpi .slt w 64#32 = 1#1) :
    0 ≤ w.toInt ∧ w.toInt < 64 := by
  unfold IntOp.cmpi at h0 h64
  rw [StableHlo.Predicate.ofBool_eq_one_iff] at h0 h64
  simp only [BitVec.slt, BitVec.sle, decide_eq_true_eq] at h0 h64
  have e0 : (0#32 : BitVec 32).toInt = 0 := by decide
  have e64 : (64#32 : BitVec 32).toInt = 64 := by decide
  rw [e0] at h0; rw [e64] at h64
  exact ⟨h0, h64⟩

theorem part2_in_range {F : FTy → Type} [FloatOps F] [hP : Cert.Pre_finite_inputs.Facts] (a3 : IVec S50000 32) (v33 : IVec S_ 1)
    (h : fn_part2 (F := F) a3 v33 ix0 = 1#1) (n : Fin 50000) :
    0 ≤ (a3 (ix1 n)).toInt ∧ (a3 (ix1 n)).toInt < 64 := by
  dsimp only [fn_part2] at h
  simp only [andi] at h
  have hall := Host.reduce_andi_all _ _ _ _ ix0 (IntOp.andi_eq_one.1 h).2 (ix1 n)
  simp only [andi, cmpi, constantI, StableHlo.Predicate.bcast_scalar _ Facts.h_S_] at hall
  exact word_in_range _ (IntOp.andi_eq_one.1 hall).1 (IntOp.andi_eq_one.1 hall).2

/-- Every node's graph label, read signed, lies in [0, 64). -/
theorem labels_in_range {F : FTy → Type} [FloatOps F] [hP : Cert.Pre_finite_inputs.Facts]
    (a0 : FVec F S50000x128 .f32) (a1 : IVec S2x625000 32) (a2 : FVec F S625000 .f32) (a3 : IVec S50000 32)
    (a4 : FVec F S4x128x128 .f32) (a5 a6 a7 a8 : FVec F S128 .f32)
    (h : Cert.Pre_finite_inputs.fn (F := F) a0 a1 a2 a3 a4 a5 a6 a7 a8 = fun _ => 1#1) (n : Fin 50000) :
    0 ≤ (a3 (ix1 n)).toInt ∧ (a3 (ix1 n)).toInt < 64 := by
  have e := congrFun h ix0
  dsimp only [fn, fn_part1] at e
  exact part2_in_range (F := F) a3 _ e n

end Cert.Pre_finite_inputs.Decode

end
-- ==== Proof.lean ====
/-
  The graph-convolution block: message-passing hops combined with weight matrices, then a per-graph normalisation,
  rectification and a residual. Its three programs run to the end with their argument arrays unchanged, and at the exact
  (extended-real) reading the kernel's program and the reference compute the same array, provided every float input is
  finite and every node's graph label lies in [0, 64).
-/
import proofs.«413368_j28329604284661_1_alg».proof.Defs
import proofs.«413368_j28329604284661_1_alg».proof.Proof.Gen.Kernel
import proofs.«413368_j28329604284661_1_alg».proof.Proof.Gen.KernelIdeal
import proofs.«413368_j28329604284661_1_alg».proof.Proof.Gen.ReferenceIdeal
import proofs.«413368_j28329604284661_1_alg».proof.Proof.Gen.Pre_finite_inputs
import proofs.«413368_j28329604284661_1_alg».proof.Proof.Gen.ReferenceIdeal.Run
import proofs.«413368_j28329604284661_1_alg».proof.Proof.Gen.ReferenceIdeal.Read
import proofs.«413368_j28329604284661_1_alg».proof.Proof.FrRun
import proofs.«413368_j28329604284661_1_alg».proof.Proof.KFrRun
import proofs.«413368_j28329604284661_1_alg».proof.Proof.ValRun
import proofs.«413368_j28329604284661_1_alg».proof.Proof.RefGn
import proofs.«413368_j28329604284661_1_alg».proof.Proof.PreDecode
import Idealize.ShloMosaic.Adequacy
import Idealize.ShloMosaic.Init

noncomputable section

namespace Cert.Proof

open Idealize.ShloMosaic Idealize.ShloMosaic.TcCoe Idealize.SL.Sem

open Cert.Kernel Cert.Kernel.Hand in
theorem frame_k : Cert.frame_Kernel := fun m ρ _ =>
  (θ_run (Cert.Kernel.defs (F := Bits)) _ _).mono (fun r h c =>
    have k := end_kept m ρ c r.2.mem (h c)
    ⟨k main_arg0 (by decide), k main_arg1 (by decide), k main_arg2 (by decide), k main_arg3 (by decide), k main_arg4 (by decide),
      k main_arg5 (by decide), k main_arg6 (by decide), k main_arg7 (by decide), k main_arg8 (by decide)⟩) (run_all m ρ)

open Cert.KernelIdeal Cert.KernelIdeal.Hand in
theorem frame_ki : Cert.frame_KernelIdeal := fun m ρ _ =>
  (θ_run (Cert.KernelIdeal.defs (F := Ideal)) _ _).mono (fun r h c =>
    have k := end_kept m ρ c r.2.mem (h c)
    ⟨k main_arg0 (by decide), k main_arg1 (by decide), k main_arg2 (by decide), k main_arg3 (by decide), k main_arg4 (by decide),
      k main_arg5 (by decide), k main_arg6 (by decide), k main_arg7 (by decide), k main_arg8 (by decide)⟩) (run_all m ρ)

/-- The reference is host operations only: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Hand in

/-- Both programs end with the block's value of the (agreeing) arguments in their result buffers. -/
theorem algebraic : Cert.algebraic_KernelIdeal_ReferenceIdeal := by
  intro m ρ m' ρ' hpre hagree
  refine ⟨fun c => W11 (F := Ideal) m ρ c (Proc.devRef .tc main_v87), ?_, ?_⟩
  · exact (θ_run (Cert.KernelIdeal.defs (F := Ideal)) _ _).mono (fun r h c =>
      have k := end_kept m ρ c r.2.mem (h c)
      ⟨h c _ (mem_uc main_v87 (by decide)), k main_arg0 (by decide), k main_arg1 (by decide), k main_arg2 (by decide), k main_arg3 (by decide), k main_arg4 (by decide),
      k main_arg5 (by decide), k main_arg6 (by decide), k main_arg7 (by decide), k main_arg8 (by decide)⟩) (run_all m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v133_eq, h0, h1, h2, h3, h4, h5, h6, h7, h8]
    show _ = W11 (F := Ideal) m ρ c (Proc.devRef .tc main_v87)
    rw [Cert.KernelIdeal.Val.kernel_result m ρ c]
    exact Cert.ReferenceIdeal.RefValue.ref_result _ _ _ _ _ _ _ _ _
      (fun n => Cert.Pre_finite_inputs.Decode.labels_in_range _ _ _ _ _ _ _ _ _ (hpre c) n)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
